-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096 : Shape := ⟨1, ![4096]⟩
abbrev S4096x4096 : Shape := ⟨2, ![4096, 4096]⟩
abbrev S32x4096 : Shape := ⟨2, ![32, 4096]⟩
abbrev S4096x32 : Shape := ⟨2, ![4096, 32]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_
  bcast_S_S32x4096 : S_.BroadcastsInDim S32x4096 (![] : Fin 0 → Fin S32x4096.rank)
  reducesTo_S32x4096_S_d0_1 : S32x4096.ReducesTo [0, 1] S_
  bcast_S_S4096x32 : S_.BroadcastsInDim S4096x32 (![] : Fin 0 → Fin S4096x32.rank)
  reducesTo_S4096x32_S_d0_1 : S4096x32.ReducesTo [0, 1] S_

variable [Facts]

def fn_part1 {F : FTy → Type} [FloatOps F] (main_arg4 : FVec F S4096x32 .f32) (main_arg5 : FVec F S4096x4096 .f32) (main_arg6 : FVec F S4096 .f32) (main_v13 : IVec S_ 1) (main_v16 : IVec S32x4096 1) : IVec S_ 1 :=
  let main_c_5 : IVec S_ 1 := constantI S_ 1 1#1
  let main_v17 : IVec S_ 1 := (fun x v => Host.reduce IntOp.andi x v reducesTo_S32x4096_S_d0_1 h_S_) main_v16 main_c_5
  let main_v18 : IVec S_ 1 := andi main_v13 main_v17
  let main_v19 : FVec F S4096x32 .f32 := Host.absf main_arg4
  let main_cst_6 : FVec F S_ .f32 := constant S_ .f32 0x7F800000#32
  let main_v20 : FVec F S4096x32 .f32 := broadcastInDim S4096x32 ![] bcast_S_S4096x32 main_cst_6
  let main_v21 : IVec S4096x32 1 := cmpf .olt main_v19 main_v20
  let main_c_7 : IVec S_ 1 := constantI S_ 1 1#1
  let main_v22 : IVec S_ 1 := (fun x v => Host.reduce IntOp.andi x v reducesTo_S4096x32_S_d0_1 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S4x2048x4096 .f32) (main_arg1 : FVec F S4096 .f32) (main_arg2 : FVec F S4096x4096 .f32) (main_arg3 : FVec F S32x4096 .f32) (main_arg4 : FVec F S4096x32 .f32) (main_arg5 : FVec F S4096x4096 .f32) (main_arg6 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S32x4096 .f32 := Host.absf main_arg3
  let main_cst_4 : FVec F S_ .f32 := constant S_ .f32 0x7F800000#32
  let main_v15 : FVec F S32x4096 .f32 := broadcastInDim S32x4096 ![] bcast_S_S32x4096 main_cst_4
  let main_v16 : IVec S32x4096 1 := cmpf .olt main_v14 main_v15
  fn_part1 (F := F) main_arg4 main_arg5 main_arg6 main_v13 main_v16
-- ==== Kernel.lean ====
abbrev S4x2048x4096 : Shape := ⟨3, ![4, 2048, 4096]⟩
abbrev S4096 : Shape := ⟨1, ![4096]⟩
abbrev S4096x4096 : Shape := ⟨2, ![4096, 4096]⟩
abbrev S32x4096 : Shape := ⟨2, ![32, 4096]⟩
abbrev S4096x32 : Shape := ⟨2, ![4096, 32]⟩
abbrev S8192x4096 : Shape := ⟨2, ![8192, 4096]⟩
abbrev S1x4096 : Shape := ⟨2, ![1, 4096]⟩
abbrev S512x128 : Shape := ⟨2, ![512, 128]⟩
abbrev S1x128 : Shape := ⟨2, ![1, 128]⟩
abbrev S512x8x16 : Shape := ⟨3, ![512, 8, 16]⟩
abbrev S512x8 : Shape := ⟨2, ![512, 8]⟩
abbrev S512x8x1 : Shape := ⟨3, ![512, 8, 1]⟩
abbrev S512x1024 : Shape := ⟨2, ![512, 1024]⟩
abbrev S32x1024 : Shape := ⟨2, ![32, 1024]⟩
abbrev S512x32 : Shape := ⟨2, ![512, 32]⟩
abbrev S1x512 : Shape := ⟨2, ![1, 512]⟩
abbrev S512x512 : Shape := ⟨2, ![512, 512]⟩

abbrev nBuf : Space → Nat
  | .hbm => 14
  | .vmem => 27
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4096x4096, .f32⟩
  | .hbm, ⟨3, _⟩ => ⟨S32x4096, .f32⟩
  | .hbm, ⟨4, _⟩ => ⟨S4096x32, .f32⟩
  | .hbm, ⟨5, _⟩ => ⟨S4096x4096, .f32⟩
  | .hbm, ⟨6, _⟩ => ⟨S4096, .f32⟩
  | .hbm, ⟨7, _⟩ => ⟨S8192x4096, .f32⟩
  | .hbm, ⟨8, _⟩ => ⟨S1x4096, .f32⟩
  | .hbm, ⟨9, _⟩ => ⟨S1x4096, .f32⟩
  | .hbm, ⟨10, _⟩ => ⟨S8192x4096, .bf16⟩
  | .hbm, ⟨11, _⟩ => ⟨S8192x4096, .bf16⟩
  | .hbm, ⟨12, _⟩ => ⟨S8192x4096, .f32⟩
  | .hbm, ⟨13, _⟩ => ⟨S4x2048x4096, .f32⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S1x128, .f32⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S32x1024, .f32⟩
  | .local _ .vmem, ⟨19, _⟩ => ⟨S32x1024, .f32⟩
  | .local _ .vmem, ⟨20, _⟩ => ⟨S512x32, .f32⟩
  | .local _ .vmem, ⟨21, _⟩ => ⟨S512x32, .f32⟩
  | .local _ .vmem, ⟨22, _⟩ => ⟨S1x512, .f32⟩
  | .local _ .vmem, ⟨23, _⟩ => ⟨S1x512, .f32⟩
  | .local _ .vmem, ⟨24, _⟩ => ⟨S512x512, .f32⟩
  | .local _ .vmem, ⟨25, _⟩ => ⟨S512x512, .f32⟩
  | .local _ .vmem, ⟨26, _⟩ => ⟨S512x32, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc1_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23
abbrev cc1_sem8_0 : DmaSem sig := 24
abbrev cc1_sem8_1 : DmaSem sig := 25

abbrev nD : Nat := 1
abbrev τ : Topo := Topo.v7x

variable {F : FTy → Type} [FloatOps F]

abbrev grid0 : Pipeline.Grid := ⟨2, ![16, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![16, 8, 4], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_8 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, true]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, true]

abbrev stage1_5 : Fin 2 → Memref sig .tc .vmem S32x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, false, true]

abbrev stage1_6 : Fin 2 → Memref sig .tc .vmem S512x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true, false]

abbrev stage1_7 : Fin 2 → Memref sig .tc .vmem S1x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true, false]

abbrev stage1_8 : Fin 2 → Memref sig .tc .vmem S512x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true, false]

class Facts₀ : Prop where
  shapeCasts_S4x2048x4096_S8192x4096 : S4x2048x4096.ShapeCasts S8192x4096
  shapeCasts_S4096_S1x4096 : S4096.ShapeCasts S1x4096
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  shapeCasts_S512x128_S512x8x16 : S512x128.ShapeCasts S512x8x16
  reduces_S512x8x16_S512x8 : S512x8x16.Reduces [2] S512x8
  shapeCasts_S512x8_S512x8x1 : S512x8.ShapeCasts S512x8x1
  broadcasts_S512x8x1_S512x8x16 : S512x8x1.Broadcasts S512x8x16
  shapeCasts_S512x8x16_S512x128 : S512x8x16.ShapeCasts S512x128
  bitsLt_bf16_f32 : FTy.bits .bf16 < FTy.bits .f32
  packedbf16_S512x128_S512x128_0_0 : (Rect.unit (s := S512x128) ![0, 0] S512x128.size inb_S512x128_S512x128_0_0).PackedRows (EltTy.packing .bf16)
  inb_S512x512_S512x512_0_0 : ∀ a, (![0, 0] : Fin 2 → Nat) a + S512x512.size a ≤ S512x512.size a
  h_S512x512 : 0 < S512x512.numel
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S32x1024_S32x1024_0_0 : ∀ a, (![0, 0] : Fin 2 → Nat) a + S32x1024.size a ≤ S32x1024.size a
  h_S32x1024 : 0 < S32x1024.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  shapeCasts_S8192x4096_S4x2048x4096 : S8192x4096.ShapeCasts S4x2048x4096
  dot_S512x1024_S512x1024_S512x512_1_1_0_0_n_n_wf : DotDims.WF S512x1024 S512x1024 S512x512 [1] [1] [0] [0] [] []
  dot_S512x1024_S32x1024_S512x32_1_1_0_0_n_n_wf : DotDims.WF S512x1024 S32x1024 S512x32 [1] [1] [0] [0] [] []
  dot_S512x32_S512x32_S512x512_1_1_0_0_n_n_wf : DotDims.WF S512x32 S512x32 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x4096.size a
  hwx0_0 : ∀ i : grid0.Coords, EltTy.bits .f32 = 32 ∨ (Rect.block (s := S8192x4096) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x4096.size a
  hwx0_1 : ∀ i : grid0.Coords, EltTy.bits .f32 = 32 ∨ (Rect.block (s := S1x4096) S1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S8192x4096.size a
  hwx0_2 : ∀ i : grid0.Coords, EltTy.bits .bf16 = 32 ∨ (Rect.block (s := S8192x4096) S512x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S8192x4096.size a
  hwx0_3 : ∀ i : grid0.Coords, EltTy.bits .bf16 = 32 ∨ (Rect.block (s := S8192x4096) S512x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x4096.size a
  hwx1_0 : ∀ i : grid1.Coords, EltTy.bits .f32 = 32 ∨ (Rect.block (s := S8192x4096) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S8192x4096.size a
  hwx1_1 : ∀ i : grid1.Coords, EltTy.bits .bf16 = 32 ∨ (Rect.block (s := S8192x4096) S512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S8192x4096.size a
  hwx1_2 : ∀ i : grid1.Coords, EltTy.bits .bf16 = 32 ∨ (Rect.block (s := S8192x4096) S512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S4096x4096.size a
  hwx1_3 : ∀ i : grid1.Coords, EltTy.bits .f32 = 32 ∨ (Rect.block (s := S4096x4096) S512x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1024.size a ≤ S4096x4096.size a
  hwx1_4 : ∀ i : grid1.Coords, EltTy.bits .f32 = 32 ∨ (Rect.block (s := S4096x4096) S512x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S32x1024.size a ≤ S32x4096.size a
  hwx1_5 : ∀ i : grid1.Coords, EltTy.bits .f32 = 32 ∨ (Rect.block (s := S32x4096) S32x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x32.size a ≤ S4096x32.size a
  hwx1_6 : ∀ i : grid1.Coords, EltTy.bits .f32 = 32 ∨ (Rect.block (s := S4096x32) S512x32.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x512.size a ≤ S1x4096.size a
  hwx1_7 : ∀ i : grid1.Coords, EltTy.bits .f32 = 32 ∨ (Rect.block (s := S1x4096) S1x512.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S512x512.size a ≤ S8192x4096.size a
  hwx1_8 : ∀ i : grid1.Coords, EltTy.bits .f32 = 32 ∨ (Rect.block (s := S8192x4096) S512x512.size (cc1_transform_8 i) (hinb1_8 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x1024_S32x1024_S512x32_1_1_0_0_n_n : DotDims S512x1024 S32x1024 S512x32 where
  lhsContracting := [1]
  rhsContracting := [1]
  lhsNonContracting := [0]
  rhsNonContracting := [0]
  lhsBatch := []
  rhsBatch := []
  wf := dot_S512x1024_S32x1024_S512x32_1_1_0_0_n_n_wf
def dot_S512x32_S512x32_S512x512_1_1_0_0_n_n : DotDims S512x32 S512x32 S512x512 where
  lhsContracting := [1]
  rhsContracting := [1]
  lhsNonContracting := [0]
  rhsNonContracting := [0]
  lhsBatch := []
  rhsBatch := []
  wf := dot_S512x32_S512x32_S512x512_1_1_0_0_n_n_wf

abbrev win0_0 : Pipeline.Window sig grid0 :=
  Pipeline.Window.ofSpec (Memref.whole main_v0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S512x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_0) S512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S512x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S512x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg3) S32x1024.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg4) S512x32.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v2) S1x512.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v4) S512x512.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S4096 : Shape := ⟨1, ![4096]⟩
abbrev S4096x4096 : Shape := ⟨2, ![4096, 4096]⟩
abbrev S32x4096 : Shape := ⟨2, ![32, 4096]⟩
abbrev S4096x32 : Shape := ⟨2, ![4096, 32]⟩
abbrev S1x1x4096 : Shape := ⟨3, ![1, 1, 4096]⟩
abbrev S2097152x16 : Shape := ⟨2, ![2097152, 16]⟩
abbrev S_ : Shape := ⟨0, ![]⟩
abbrev S2097152 : Shape := ⟨1, ![2097152]⟩
abbrev S2097152x1 : Shape := ⟨2, ![2097152, 1]⟩
abbrev S4x2048x32 : Shape := ⟨3, ![4, 2048, 32]⟩

abbrev nBuf : Space → Nat
  | .hbm => 45
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4096x4096, .f32⟩
  | .hbm, ⟨3, _⟩ => ⟨S32x4096, .f32⟩
  | .hbm, ⟨4, _⟩ => ⟨S4096x32, .f32⟩
  | .hbm, ⟨5, _⟩ => ⟨S4096x4096, .f32⟩
  | .hbm, ⟨6, _⟩ => ⟨S4096, .f32⟩
  | .hbm, ⟨7, _⟩ => ⟨S1x1x4096, .f32⟩
  | .hbm, ⟨8, _⟩ => ⟨S4x2048x4096, .f32⟩
  | .hbm, ⟨9, _⟩ => ⟨S4x2048x4096, .f32⟩
  | .hbm, ⟨10, _⟩ => ⟨S2097152x16, .f32⟩
  | .hbm, ⟨11, _⟩ => ⟨S2097152x16, .f32⟩
  | .hbm, ⟨12, _⟩ => ⟨S_, .f32⟩
  | .hbm, ⟨13, _⟩ => ⟨S2097152, .f32⟩
  | .hbm, ⟨14, _⟩ => ⟨S2097152x1, .f32⟩
  | .hbm, ⟨15, _⟩ => ⟨S_, .f32⟩
  | .hbm, ⟨16, _⟩ => ⟨S_, .f32⟩
  | .hbm, ⟨17, _⟩ => ⟨S2097152x1, .f32⟩
  | .hbm, ⟨18, _⟩ => ⟨S2097152x1, .f32⟩
  | .hbm, ⟨19, _⟩ => ⟨S_, .f32⟩
  | .hbm, ⟨20, _⟩ => ⟨S2097152x1, .f32⟩
  | .hbm, ⟨21, _⟩ => ⟨S2097152x1, .f32⟩
  | .hbm, ⟨22, _⟩ => ⟨S2097152x16, .f32⟩
  | .hbm, ⟨23, _⟩ => ⟨S2097152x16, .f32⟩
  | .hbm, ⟨24, _⟩ => ⟨S2097152x16, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S2097152x16, .f32⟩
  | .hbm, ⟨29, _⟩ => ⟨S2097152x16, .f32⟩
  | .hbm, ⟨30, _⟩ => ⟨S_, .f32⟩
  | .hbm, ⟨31, _⟩ => ⟨S2097152x16, .f32⟩
  | .hbm, ⟨32, _⟩ => ⟨S2097152x16, .f32⟩
  | .hbm, ⟨33, _⟩ => ⟨S2097152x16, .f32⟩
  | .hbm, ⟨34, _⟩ => ⟨S2097152x16, .f32⟩
  | .hbm, ⟨35, _⟩ => ⟨S4x2048x4096, .f32⟩
  | .hbm, ⟨36, _⟩ => ⟨S4x2048x4096, .f32⟩
  | .hbm, ⟨37, _⟩ => ⟨S4x2048x32, .f32⟩
  | .hbm, ⟨38, _⟩ => ⟨S4x2048x4096, .f32⟩
  | .hbm, ⟨39, _⟩ => ⟨S4x2048x4096, .f32⟩
  | .hbm, ⟨40, _⟩ => ⟨S4x2048x4096, .f32⟩
  | .hbm, ⟨41, _⟩ => ⟨S4x2048x4096, .f32⟩
  | .hbm, ⟨42, _⟩ => ⟨S1x1x4096, .f32⟩
  | .hbm, ⟨43, _⟩ => ⟨S4x2048x4096, .f32⟩
  | .hbm, ⟨44, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_cst_3 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  shapeCasts_S4x2048x4096_S2097152x16 : S4x2048x4096.ShapeCasts S2097152x16
  reducesTo_S2097152x16_S2097152_d1 : S2097152x16.ReducesTo [1] S2097152
  h_S_ : 0 < S_.numel
  bcast_S2097152_S2097152x1_0 : S2097152.BroadcastsInDim S2097152x1 (![0] : Fin 1 → Fin S2097152x1.rank)
  bcast_S_S2097152x1 : S_.BroadcastsInDim S2097152x1 (![] : Fin 0 → Fin S2097152x1.rank)
  bcast_S2097152x1_S2097152x16_0_1 : S2097152x1.BroadcastsInDim S2097152x16 (![0, 1] : Fin 2 → Fin S2097152x16.rank)
  bcast_S_S2097152x16 : S_.BroadcastsInDim S2097152x16 (![] : Fin 0 → Fin S2097152x16.rank)
  shapeCasts_S2097152x16_S4x2048x4096 : S2097152x16.ShapeCasts S4x2048x4096
  dot_S4x2048x4096_S4096x4096_S4x2048x4096_2_1_01_0_n_n_wf : DotDims.WF S4x2048x4096 S4096x4096 S4x2048x4096 [2] [1] [0, 1] [0] [] []
  dot_S4x2048x4096_S32x4096_S4x2048x32_2_1_01_0_n_n_wf : DotDims.WF S4x2048x4096 S32x4096 S4x2048x32 [2] [1] [0, 1] [0] [] []
  dot_S4x2048x32_S4096x32_S4x2048x4096_2_1_01_0_n_n_wf : DotDims.WF S4x2048x32 S4096x32 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S32x4096_S4x2048x32_2_1_01_0_n_n : DotDims S4x2048x4096 S32x4096 S4x2048x32 where
  lhsContracting := [2]
  rhsContracting := [1]
  lhsNonContracting := [0, 1]
  rhsNonContracting := [0]
  lhsBatch := []
  rhsBatch := []
  wf := dot_S4x2048x4096_S32x4096_S4x2048x32_2_1_01_0_n_n_wf
def dot_S4x2048x32_S4096x32_S4x2048x4096_2_1_01_0_n_n : DotDims S4x2048x32 S4096x32 S4x2048x4096 where
  lhsContracting := [2]
  rhsContracting := [1]
  lhsNonContracting := [0, 1]
  rhsNonContracting := [0]
  lhsBatch := []
  rhsBatch := []
  wf := dot_S4x2048x32_S4096x32_S4x2048x4096_2_1_01_0_n_n_wf

class Facts : Prop extends Facts₀ where

variable [Facts]
-- ==== Proof.K.Reg0.lean ====
import proofs.«158585_j49787260895356_1_alg».proof.Proof.Gen.Kernel.Launch
import proofs.«158585_j49787260895356_1_alg».proof.Proof.Gen.Kernel.Skeleton
import proofs.«158585_j49787260895356_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_a : Rect S512x128 := Rect.unit (s := S512x128) ![0, 0] S512x128.size inb_S512x128_S512x128_0_0
abbrev r0_b : Rect S1x128 := Rect.unit (s := S1x128) ![0, 0] S1x128.size inb_S1x128_S1x128_0_0

def out0_2 (x0 : Vec F S512x128 .f32) (x1 : Vec F S1x128 .f32) : Vec F S512x128 .bf16 :=
  View.canon [⟨r0_a, k0_pay2 (View.ld x0 r0_a) (View.ld x1 r0_b)⟩]

def out0_3 (x0 : Vec F S512x128 .f32) (x1 : Vec F S1x128 .f32) : Vec F S512x128 .bf16 :=
  View.canon [⟨r0_a, k0_pay3 (View.ld x0 r0_a) (View.ld x1 r0_b)⟩]

theorem cover0 (p0 : Vec F S512x128 .bf16) (y : S512x128.Idx) :
    ∃ pc ∈ ([⟨r0_a, p0⟩] : List (View.Piece (Elt F) S512x128 .bf16)), y ∈ pc.1.set :=
  View.cover_of_tiled [⟨r0_a, p0⟩] S512x128.size (by rfl) y

set_option maxHeartbeats 1000000 in

theorem sound_kernel0 (c : Dev nD) (E : Set ℕ) (i : grid0.Coords) (arg2 : Memref sig .tc .vmem S512x128 .f32) (harg2 : arg2.IsWhole) (arg3 : Memref sig .tc .vmem S1x128 .f32) (harg3 : arg3.IsWhole)
    (arg4 : Memref sig .tc .vmem S512x128 .bf16) (harg4 : arg4.IsWhole) (arg5 : Memref sig .tc .vmem S512x128 .bf16) (harg5 : arg5.IsWhole)
    (x0 : Vec F S512x128 .f32) (x1 : Vec F S1x128 .f32) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1 ∗ owns (c : Thread nD τ) arg4 fullShare (out0_2 x0 x1) ∗ owns (c : Thread nD τ) arg5 fullShare (out0_3 x0 x1)) -∗ K ⟨⟩))
      ⊢ wp frame (wpE (defs₀ (F := F)) Variants.none c none) E (cc0__quant_kernel i arg2 harg2 arg3 harg3 arg4 harg4 arg5 harg5) K := by
  simp only [cc0__quant_kernel_eq_skeleton]; unfold cc0__quant_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  iexists _; isplitr
  swap; · iexact H3
  ipureintro
  exact View.read_writes_eq_canon _ _ _ (cover0 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Reg1Shared.lean ====
import proofs.«158585_j49787260895356_1_alg».proof.Proof.Gen.Kernel.Launch
import proofs.«158585_j49787260895356_1_alg».proof.Proof.Gen.Kernel.Skeleton
import proofs.«158585_j49787260895356_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

abbrev cond1_1 (i : grid1.Coords) : Prop := (Scalar.cmpi .ne (Scalar.extui (Scalar.cmpi .eq (BitVec.ofNat 32 (i 2).val) 3#32)) 0#32) = 1#1
theorem hcond1_1 : ∀ t : Fin cfg1.N, cond1_1 (grid1.coords t) ↔ t.val % 4 = 3 :=
  (by decide +kernel : ∀ t : Fin grid1.N, cond1_1 (grid1.coords t) ↔ t.val % 4 = 3)

abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S32x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x32 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x512 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S512x512 .f32 := win1_8.stage (cfg1.slots t 8)
abbrev hs1_8 (t : Fin cfg1.N) : (ms1_8 t).IsWhole := hstage1_8 ((cfg1.slots t 8).cast nbuf1_8)

abbrev scM1_0 : Memref sig .tc .vmem S512x32 .f32 := Memref.whole cc1_scratch0
abbrev VS1_0 : View sig .tc .vmem S512x32 .f32 := scM1_0.view

abbrev VO1_8 : View sig .tc .vmem S512x512 .f32 := (Memref.whole cc1_stg8_0 : Memref sig .tc .vmem S512x512 .f32).view

/-- The invariant's shape with the accumulator's part `S` left open, so that it is written once. -/
def PhiWith (c : Dev nD) (S : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S) ∗ (∃ r, prngReg c r))

theorem PhiA1_eq (c : Dev nD) :
    (Pipeline.ΦA spec1 c : sProp 𝕄) = PhiWith c iprop(∃ d, owns (c : Thread nD τ) scM1_0 fullShare d) := by
  unfold Pipeline.ΦA PhiWith; rw [scopedRest1_eq]; simp only [scM1_0, owns_whole]; try rfl

end Cert.Kernel.Hand

end
-- ==== Proof.K.Reg1RunA.lean ====
import proofs.«158585_j49787260895356_1_alg».proof.Proof.K.Reg1Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S512x1024 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S32x1024 .f32) (harg8 : arg8.IsWhole) (arg9 : Memref sig .tc .vmem S512x32 .f32) (harg9 : arg9.IsWhole) (arg10 : Memref sig .tc .vmem S1x512 .f32) (harg10 : arg10.IsWhole) (arg11 : Memref sig .tc .vmem S512x512 .f32) (harg11 : arg11.IsWhole) (arg12 : Memref sig .tc .vmem S512x32 .f32) (harg12 : arg12.IsWhole) (hc0 : cond1_0 i) (hc1 : ¬cond1_1 i)
    (x0 : Vec F S512x1024 .f32) (x1 : Vec F S512x1024 .bf16) (x2 : Vec F S512x1024 .bf16) (x3 : Vec F S512x1024 .f32) (x4 : Vec F S512x1024 .f32) (x5 : Vec F S32x1024 .f32) (x6 : Vec F S512x32 .f32) (x7 : Vec F S1x512 .f32) :
    Σ' (L8 : List (View.Piece (Elt F) S512x512 .f32)), { LS0 : List (View.Piece (Elt F) S512x32 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f LS0)) -∗ K ⟨⟩))
          ⊢ wp frame (wpE (defs₀ (F := F)) Variants.none c none) E (cc1__matmul_kernel i arg3 harg3 arg4 harg4 arg5 harg5 arg6 harg6 arg7 harg7 arg8 harg8 arg9 harg9 arg10 harg10 arg11 harg11 arg12 harg12) K } := by
  refine ⟨?_, ?_, fun E K => ?run⟩
  case run =>
    simp only [cc1__matmul_kernel_eq_skeleton]; unfold cc1__matmul_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6; obtain rfl := harg10.eq_unread hf7
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    iexists _; iexact HS0

end Cert.Kernel.Hand

end
-- ==== Proof.K.Reg1RunB.lean ====
import proofs.«158585_j49787260895356_1_alg».proof.Proof.K.Reg1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S512x1024 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S32x1024 .f32) (harg8 : arg8.IsWhole) (arg9 : Memref sig .tc .vmem S512x32 .f32) (harg9 : arg9.IsWhole) (arg10 : Memref sig .tc .vmem S1x512 .f32) (harg10 : arg10.IsWhole) (arg11 : Memref sig .tc .vmem S512x512 .f32) (harg11 : arg11.IsWhole) (arg12 : Memref sig .tc .vmem S512x32 .f32) (harg12 : arg12.IsWhole) (hc0 : ¬cond1_0 i) (hc1 : ¬cond1_1 i)
    (x0 : Vec F S512x1024 .f32) (x1 : Vec F S512x1024 .bf16) (x2 : Vec F S512x1024 .bf16) (x3 : Vec F S512x1024 .f32) (x4 : Vec F S512x1024 .f32) (x5 : Vec F S32x1024 .f32) (x6 : Vec F S512x32 .f32) (x7 : Vec F S1x512 .f32) (xo8 : Vec F S512x512 .f32) (xs0 : Vec F S512x32 .f32) :
    Σ' (L8 : List (View.Piece (Elt F) S512x512 .f32)), { LS0 : List (View.Piece (Elt F) S512x32 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xo8 ∗ owns (c : Thread nD τ) arg12 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f LS0)) -∗ K ⟨⟩))
          ⊢ wp frame (wpE (defs₀ (F := F)) Variants.none c none) E (cc1__matmul_kernel i arg3 harg3 arg4 harg4 arg5 harg5 arg6 harg6 arg7 harg7 arg8 harg8 arg9 harg9 arg10 harg10 arg11 harg11 arg12 harg12) K } := by
  refine ⟨?_, ?_, fun E K => ?run⟩
  case run =>
    simp only [cc1__matmul_kernel_eq_skeleton]; unfold cc1__matmul_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6; obtain rfl := harg10.eq_unread hf7
    obtain rfl := harg11.eq_unread hf8; obtain rfl := harg12.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    iexists _; iexact HS0

end Cert.Kernel.Hand

end
-- ==== Proof.K.Reg1RunC.lean ====
import proofs.«158585_j49787260895356_1_alg».proof.Proof.K.Reg1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S512x1024 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S32x1024 .f32) (harg8 : arg8.IsWhole) (arg9 : Memref sig .tc .vmem S512x32 .f32) (harg9 : arg9.IsWhole) (arg10 : Memref sig .tc .vmem S1x512 .f32) (harg10 : arg10.IsWhole) (arg11 : Memref sig .tc .vmem S512x512 .f32) (harg11 : arg11.IsWhole) (arg12 : Memref sig .tc .vmem S512x32 .f32) (harg12 : arg12.IsWhole) (hc0 : ¬cond1_0 i) (hc1 : cond1_1 i)
    (x0 : Vec F S512x1024 .f32) (x1 : Vec F S512x1024 .bf16) (x2 : Vec F S512x1024 .bf16) (x3 : Vec F S512x1024 .f32) (x4 : Vec F S512x1024 .f32) (x5 : Vec F S32x1024 .f32) (x6 : Vec F S512x32 .f32) (x7 : Vec F S1x512 .f32) (xo8 : Vec F S512x512 .f32) (xs0 : Vec F S512x32 .f32) :
    Σ' (L8 : List (View.Piece (Elt F) S512x512 .f32)), { LS0 : List (View.Piece (Elt F) S512x32 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xo8 ∗ owns (c : Thread nD τ) arg12 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f LS0)) -∗ K ⟨⟩))
          ⊢ wp frame (wpE (defs₀ (F := F)) Variants.none c none) E (cc1__matmul_kernel i arg3 harg3 arg4 harg4 arg5 harg5 arg6 harg6 arg7 harg7 arg8 harg8 arg9 harg9 arg10 harg10 arg11 harg11 arg12 harg12) K } := by
  refine ⟨?_, ?_, fun E K => ?run⟩
  case run =>
    simp only [cc1__matmul_kernel_eq_skeleton]; unfold cc1__matmul_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6; obtain rfl := harg10.eq_unread hf7
    obtain rfl := harg11.eq_unread hf8; obtain rfl := harg12.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    iexists _; iexact HS0

end Cert.Kernel.Hand

end
-- ==== Proof.K.Reg1Defs.lean ====
import proofs.«158585_j49787260895356_1_alg».proof.Proof.K.Reg1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

-- `out1_X_8` and `sout1_X_0`: what each control case's stores leave in the output block and in the accumulator, read back.
section Cases
variable (c : Dev nD) (i : grid1.Coords) (arg3 : Memref sig .tc .vmem S512x1024 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S32x1024 .f32) (harg8 : arg8.IsWhole) (arg9 : Memref sig .tc .vmem S512x32 .f32) (harg9 : arg9.IsWhole) (arg10 : Memref sig .tc .vmem S1x512 .f32) (harg10 : arg10.IsWhole) (arg11 : Memref sig .tc .vmem S512x512 .f32) (harg11 : arg11.IsWhole) (arg12 : Memref sig .tc .vmem S512x32 .f32) (harg12 : arg12.IsWhole)

section CaseA
variable (hc0 : cond1_0 i) (hc1 : ¬cond1_1 i) (x0 : Vec F S512x1024 .f32) (x1 : Vec F S512x1024 .bf16) (x2 : Vec F S512x1024 .bf16) (x3 : Vec F S512x1024 .f32) (x4 : Vec F S512x1024 .f32) (x5 : Vec F S32x1024 .f32) (x6 : Vec F S512x32 .f32) (x7 : Vec F S1x512 .f32)

def out1_A_8 : Vec F S512x512 .f32 :=
  VO1_8.read (Elt F) (VO1_8.writes (Elt F) VO1_8.junk (kernelRun1_A c i arg3 harg3 arg4 harg4 arg5 harg5 arg6 harg6 arg7 harg7 arg8 harg8 arg9 harg9 arg10 harg10 arg11 harg11 arg12 harg12 hc0 hc1 x0 x1 x2 x3 x4 x5 x6 x7).1)

def sout1_A_0 : Vec F S512x32 .f32 :=
  VS1_0.read (Elt F) (VS1_0.writes (Elt F) VS1_0.junk (kernelRun1_A c i arg3 harg3 arg4 harg4 arg5 harg5 arg6 harg6 arg7 harg7 arg8 harg8 arg9 harg9 arg10 harg10 arg11 harg11 arg12 harg12 hc0 hc1 x0 x1 x2 x3 x4 x5 x6 x7).2.1)

end CaseA

section CaseB
variable (hc0 : ¬cond1_0 i) (hc1 : ¬cond1_1 i) (x0 : Vec F S512x1024 .f32) (x1 : Vec F S512x1024 .bf16) (x2 : Vec F S512x1024 .bf16) (x3 : Vec F S512x1024 .f32) (x4 : Vec F S512x1024 .f32) (x5 : Vec F S32x1024 .f32) (x6 : Vec F S512x32 .f32) (x7 : Vec F S1x512 .f32) (xo8 : Vec F S512x512 .f32) (xs0 : Vec F S512x32 .f32)

def out1_B_8 : Vec F S512x512 .f32 :=
  VO1_8.read (Elt F) (VO1_8.writes (Elt F) VO1_8.junk (kernelRun1_B c i arg3 harg3 arg4 harg4 arg5 harg5 arg6 harg6 arg7 harg7 arg8 harg8 arg9 harg9 arg10 harg10 arg11 harg11 arg12 harg12 hc0 hc1 x0 x1 x2 x3 x4 x5 x6 x7 xo8 xs0).1)

def sout1_B_0 : Vec F S512x32 .f32 :=
  VS1_0.read (Elt F) (VS1_0.writes (Elt F) VS1_0.junk (kernelRun1_B c i arg3 harg3 arg4 harg4 arg5 harg5 arg6 harg6 arg7 harg7 arg8 harg8 arg9 harg9 arg10 harg10 arg11 harg11 arg12 harg12 hc0 hc1 x0 x1 x2 x3 x4 x5 x6 x7 xo8 xs0).2.1)

end CaseB

section CaseC
variable (hc0 : ¬cond1_0 i) (hc1 : cond1_1 i) (x0 : Vec F S512x1024 .f32) (x1 : Vec F S512x1024 .bf16) (x2 : Vec F S512x1024 .bf16) (x3 : Vec F S512x1024 .f32) (x4 : Vec F S512x1024 .f32) (x5 : Vec F S32x1024 .f32) (x6 : Vec F S512x32 .f32) (x7 : Vec F S1x512 .f32) (xo8 : Vec F S512x512 .f32) (xs0 : Vec F S512x32 .f32)

def out1_C_8 : Vec F S512x512 .f32 :=
  VO1_8.read (Elt F) (VO1_8.writes (Elt F) VO1_8.junk (kernelRun1_C c i arg3 harg3 arg4 harg4 arg5 harg5 arg6 harg6 arg7 harg7 arg8 harg8 arg9 harg9 arg10 harg10 arg11 harg11 arg12 harg12 hc0 hc1 x0 x1 x2 x3 x4 x5 x6 x7 xo8 xs0).1)

def sout1_C_0 : Vec F S512x32 .f32 :=
  VS1_0.read (Elt F) (VS1_0.writes (Elt F) VS1_0.junk (kernelRun1_C c i arg3 harg3 arg4 harg4 arg5 harg5 arg6 harg6 arg7 harg7 arg8 harg8 arg9 harg9 arg10 harg10 arg11 harg11 arg12 harg12 hc0 hc1 x0 x1 x2 x3 x4 x5 x6 x7 xo8 xs0).2.1)

end CaseC

end Cases

theorem cA0 (t : Fin cfg1.N) (h0 : t.val % 4 = 0) : cond1_0 (grid1.coords t) := (hcond1_0 t).mpr h0
theorem cA1 (t : Fin cfg1.N) (h0 : t.val % 4 = 0) : ¬cond1_1 (grid1.coords t) := fun h => by have := (hcond1_1 t).mp h; omega
theorem cB0 (t : Fin cfg1.N) (h0 : ¬t.val % 4 = 0) : ¬cond1_0 (grid1.coords t) := fun h => h0 ((hcond1_0 t).mp h)
theorem cB1 (t : Fin cfg1.N) (h1 : ¬t.val % 4 = 3) : ¬cond1_1 (grid1.coords t) := fun h => h1 ((hcond1_1 t).mp h)
theorem cC0 (t : Fin cfg1.N) (h1 : t.val % 4 = 3) : ¬cond1_0 (grid1.coords t) := fun h => by have := (hcond1_0 t).mp h; omega
theorem cC1 (t : Fin cfg1.N) (h1 : t.val % 4 = 3) : cond1_1 (grid1.coords t) := (hcond1_1 t).mpr h1

/-- What point `t` leaves in (output block, accumulator), by its case; `p` is what the point before left. -/
abbrev ptA (c : Dev nD) (t : Fin cfg1.N) (h0 : t.val % 4 = 0) : Vec F S512x512 .f32 × Vec F S512x32 .f32 :=
  (out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (cA0 t h0) (cA1 t h0) (iblk1 V c 0 t) (iblk1 V c 1 t) (iblk1 V c 2 t) (iblk1 V c 3 t) (iblk1 V c 4 t) (iblk1 V c 5 t) (iblk1 V c 6 t) (iblk1 V c 7 t),
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (cA0 t h0) (cA1 t h0) (iblk1 V c 0 t) (iblk1 V c 1 t) (iblk1 V c 2 t) (iblk1 V c 3 t) (iblk1 V c 4 t) (iblk1 V c 5 t) (iblk1 V c 6 t) (iblk1 V c 7 t))
abbrev ptB (c : Dev nD) (t : Fin cfg1.N) (h0 : ¬t.val % 4 = 0) (h1 : ¬t.val % 4 = 3) (p : Vec F S512x512 .f32 × Vec F S512x32 .f32) : Vec F S512x512 .f32 × Vec F S512x32 .f32 :=
  (out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (cB0 t h0) (cB1 t h1) (iblk1 V c 0 t) (iblk1 V c 1 t) (iblk1 V c 2 t) (iblk1 V c 3 t) (iblk1 V c 4 t) (iblk1 V c 5 t) (iblk1 V c 6 t) (iblk1 V c 7 t) p.1 p.2,
   sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (cB0 t h0) (cB1 t h1) (iblk1 V c 0 t) (iblk1 V c 1 t) (iblk1 V c 2 t) (iblk1 V c 3 t) (iblk1 V c 4 t) (iblk1 V c 5 t) (iblk1 V c 6 t) (iblk1 V c 7 t) p.1 p.2)
abbrev ptC (c : Dev nD) (t : Fin cfg1.N) (h1 : t.val % 4 = 3) (p : Vec F S512x512 .f32 × Vec F S512x32 .f32) : Vec F S512x512 .f32 × Vec F S512x32 .f32 :=
  (out1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (cC0 t h1) (cC1 t h1) (iblk1 V c 0 t) (iblk1 V c 1 t) (iblk1 V c 2 t) (iblk1 V c 3 t) (iblk1 V c 4 t) (iblk1 V c 5 t) (iblk1 V c 6 t) (iblk1 V c 7 t) p.1 p.2,
   sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (cC0 t h1) (cC1 t h1) (iblk1 V c 0 t) (iblk1 V c 1 t) (iblk1 V c 2 t) (iblk1 V c 3 t) (iblk1 V c 4 t) (iblk1 V c 5 t) (iblk1 V c 6 t) (iblk1 V c 7 t) p.1 p.2)

def outsAt1 (c : Dev nD) : (n : ℕ) → n < cfg1.N → Vec F S512x512 .f32 × Vec F S512x32 .f32
  | 0, hn => ptA V c ⟨0, hn⟩ (Nat.zero_mod 4)
  | n + 1, hn =>
    if h0 : (n + 1) % 4 = 0 then ptA V c ⟨n + 1, hn⟩ h0
    else if h1 : (n + 1) % 4 = 3 then ptC V c ⟨n + 1, hn⟩ h1 (outsAt1 c n (Nat.lt_of_succ_lt hn))
    else ptB V c ⟨n + 1, hn⟩ h0 h1 (outsAt1 c n (Nat.lt_of_succ_lt hn))

theorem outsAt1_A (c : Dev nD) (t : Fin cfg1.N) (h0 : t.val % 4 = 0) : outsAt1 V c t.val t.isLt = ptA V c t h0 := by
  obtain ⟨n, hn⟩ := t
  cases n with
  | zero => exact rfl
  | succ n => exact (dif_pos h0).trans rfl

theorem outsAt1_B (c : Dev nD) (t : Fin cfg1.N) (h0 : ¬t.val % 4 = 0) (h1 : ¬t.val % 4 = 3) :
    outsAt1 V c t.val t.isLt = ptB V c t h0 h1 (outsAt1 V c (t.val - 1) (Nat.lt_of_le_of_lt (Nat.sub_le _ _) t.isLt)) := by
  obtain ⟨n, hn⟩ := t
  cases n with
  | zero => exact absurd (Nat.zero_mod 4) h0
  | succ n => exact (dif_neg h0).trans ((dif_neg h1).trans rfl)

theorem outsAt1_C (c : Dev nD) (t : Fin cfg1.N) (h1 : t.val % 4 = 3) :
    outsAt1 V c t.val t.isLt = ptC V c t h1 (outsAt1 V c (t.val - 1) (Nat.lt_of_le_of_lt (Nat.sub_le _ _) t.isLt)) := by
  obtain ⟨n, hn⟩ := t
  cases n with
  | zero => exact (by exfalso; dsimp only at h1; omega)
  | succ n =>
    have h0 : ¬(n + 1) % 4 = 0 := fun h => by dsimp only at h1; omega
    exact (dif_neg h0).trans ((dif_pos h1).trans rfl)

/-- The invariant before point `n`: the accumulator holds what point `n - 1` left in it. -/
def PhiS1 (c : Dev nD) : (n : ℕ) → n ≤ cfg1.N → sProp 𝕄
  | 0, _ => Pipeline.ΦA spec1 c
  | n + 1, hn => PhiWith c (owns (c : Thread nD τ) scM1_0 fullShare (outsAt1 V c n hn).2)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = PhiWith c (owns (c : Thread nD τ) scM1_0 fullShare (outsAt1 V c n hn).2) := rfl

theorem PhiS1_pos (c : Dev nD) (n : ℕ) (h : n ≤ cfg1.N) (hz : n ≠ 0) :
    PhiS1 V c n h = PhiWith c (owns (c : Thread nD τ) scM1_0 fullShare (outsAt1 V c (n - 1) (by omega)).2) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt).1 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl) (fun t => by rw [after1_7]; unfold Dat.blockOf iblk1; rw [A_eq1]; try rfl) t d).trans
    (by unfold Dat.fetched Dat.blockOf iblk1; rw [A_eq1]; try rfl)

theorem before1_8_pos (c : Dev nD) (t : Fin cfg1.N) (h0 : ¬t.val % 4 = 0) (d) :
    (dat1 V c).before 8 t d = (outsAt1 V c (t.val - 1) (Nat.lt_of_le_of_lt (Nat.sub_le _ _) t.isLt)).1 :=
  ((dat1 V c).before_out_kept 8 rfl t (fun hz => h0 (by rw [hz]))
    (by
      have h3 : ¬(cfg1.win 8).flush ⟨t.val - 1, Nat.lt_of_le_of_lt (Nat.sub_le _ _) t.isLt⟩ = true := fun h => by
        have := (flush1_8 ⟨t.val - 1, Nat.lt_of_le_of_lt (Nat.sub_le _ _) t.isLt⟩).mp h
        dsimp only at this; omega
      exact (Bool.not_eq_true _).mp h3)
    (fun _ => rfl) (fun _ _ => rfl) d).trans (after1_8 V c ⟨t.val - 1, Nat.lt_of_le_of_lt (Nat.sub_le _ _) t.isLt⟩)

end Region1

end Cert.Kernel.Hand

end
-- ==== Proof.K.Reg1.lean ====
import proofs.«158585_j49787260895356_1_alg».proof.Proof.K.Reg1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t))

set_option maxHeartbeats 4000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4, after1_5, after1_6, after1_7, after1_8]
  by_cases h0 : t.val % 4 = 0
  on_goal 1 =>
    rw [outsAt1_A V c t h0]; unfold ptA out1_A_8 sout1_A_0; dsimp only
    by_cases hz : t.val = 0
    on_goal 1 => rw [PhiS1_castSucc V c t, PhiS1_zero V c _ _ hz, PhiA1_eq]
    on_goal 2 => rw [PhiS1_castSucc V c t, PhiS1_pos V c _ _ hz]
  on_goal 3 =>
    have hz : t.val ≠ 0 := fun hz => h0 (by rw [hz])
    simp only [before1_8_pos V c t h0]
    by_cases h1 : t.val % 4 = 3
    on_goal 1 => rw [outsAt1_C V c t h1]; unfold ptC out1_C_8 sout1_C_0; dsimp only
    on_goal 2 => rw [outsAt1_B V c t h0 h1]; unfold ptB out1_B_8 sout1_B_0; dsimp only
    all_goals rw [PhiS1_castSucc V c t, PhiS1_pos V c _ _ hz]
  all_goals
    unfold PhiWith
    iintro ⟨⟨⟨R1, R2, R3, R4, R5, R6, R7, R8, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  on_goal 1 => iapply ((kernelRun1_A c (grid1.coords t) _ _ _ _ _ _ _ _ _ _ _ _ _ _ _ _ _ _ _ _ (cA0 t h0) (cA1 t h0) (iblk1 V c 0 t) (iblk1 V c 1 t) (iblk1 V c 2 t) (iblk1 V c 3 t) (iblk1 V c 4 t) (iblk1 V c 5 t) (iblk1 V c 6 t) (iblk1 V c 7 t)).2.2 Set.univ _)
  on_goal 2 => iapply ((kernelRun1_A c (grid1.coords t) _ _ _ _ _ _ _ _ _ _ _ _ _ _ _ _ _ _ _ _ (cA0 t h0) (cA1 t h0) (iblk1 V c 0 t) (iblk1 V c 1 t) (iblk1 V c 2 t) (iblk1 V c 3 t) (iblk1 V c 4 t) (iblk1 V c 5 t) (iblk1 V c 6 t) (iblk1 V c 7 t)).2.2 Set.univ _)
  on_goal 3 => iapply ((kernelRun1_C c (grid1.coords t) _ _ _ _ _ _ _ _ _ _ _ _ _ _ _ _ _ _ _ _ (cC0 t h1) (cC1 t h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).1 (outsAt1 V c (t.val - 1) (Nat.lt_of_le_of_lt (Nat.sub_le _ _) t.isLt)).2).2.2 Set.univ _)
  on_goal 4 => iapply ((kernelRun1_B c (grid1.coords t) _ _ _ _ _ _ _ _ _ _ _ _ _ _ _ _ _ _ _ _ (cB0 t h0) (cB1 t h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).1 (outsAt1 V c (t.val - 1) (Nat.lt_of_le_of_lt (Nat.sub_le _ _) t.isLt)).2).2.2 Set.univ _)
  all_goals
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
  on_goal 1 => isplitl [H8]; · iexists _; iexact H8
  on_goal 1 => isplitl [HS0]; · iexact HS0
  on_goal 2 => isplitl [H8]; · iexists _; iexact H8
  on_goal 2 => isplitl [HS0]; · iexists _; iexact HS0
  on_goal 3 => isplitl [H8]; · iexact H8
  on_goal 3 => isplitl [HS0]; · iexact HS0
  on_goal 4 => isplitl [H8]; · iexact H8
  on_goal 4 => isplitl [HS0]; · iexact HS0
  all_goals
    iintro ⟨H0, H1, H2, H3, H4, H5, H6, H7, ⟨%e8, H8⟩, ⟨%es0, HS0⟩⟩
    isplitl [R1 R2 R3 R4 R5 R6 R7 R8 HS0 Hg]
    · isplitl [R1 R2 R3 R4 R5 R6 R7 R8 HS0]
      · isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        unfold owns; iexists _; isplitr
        swap; · iexact HS0
        ipureintro
        exact View.read_writes_of_cover _ _ _ _ _ fun y => View.cover_of_tiledL _ S512x32.size (by sl_kernel_rfl) y
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro
    exact View.read_writes_of_cover _ _ _ _ _ fun y => View.cover_of_tiledL _ S512x512.size (by sl_kernel_rfl) y

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]; unfold PhiWith
  iintro ⟨⟨R1, R2, R3, R4, R5, R6, R7, R8, HS0⟩, Hg⟩
  isplitl [R1 R2 R3 R4 R5 R6 R7 R8 HS0]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexists _; iexact HS0
  iexact Hg

theorem hout1 (c : Dev nD) : (dat1 V c).Φ (Fin.last cfg1.N) ⊢ Pipeline.ΦA spec1 c :=
  Phi_out1 V c _ (by rw [Fin.val_last]; have : cfg1.N = 512 := N_1; omega)

end Region1

end Cert.Kernel.Hand

end
-- ==== Proof.K.Run.lean ====
import proofs.«158585_j49787260895356_1_alg».proof.Proof.K.Reg0
import proofs.«158585_j49787260895356_1_alg».proof.Proof.K.Reg1
import proofs.«158585_j49787260895356_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m ((c : Dev nD), b)

abbrev W1 : Dev nD → Valuation τ sig (Elt F) := fun c => StableHlo.after hostOps0 (W0 m c)
abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

def W4 (c : Dev nD) : Valuation τ sig (Elt F) :=
  Pipeline.withArrays spec1 c (W2 m c) fun w => (dat1 (V2 m) c).arrAt w cfg1.N
theorem W4_arr (c : Dev nD) (w : Fin cfg1.W) :
    W4 m c (Proc.devRef .tc (Pipeline.arrRef spec1 w)) = (dat1 (V2 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W2 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V2 m) c).arrAt w cfg1.N = V4 m c (Pipeline.arrRef spec1 w) :=
  (W4_arr m c w).symm
theorem hrest1 (c : Dev nD) : ∀ b, b ∉ Finset.univ.image (Pipeline.arrRef spec1) → V4 m c b = V2 m c b :=
  fun b hb => W4_of_ne m c b fun w e => hb (Finset.mem_image.mpr ⟨w, Finset.mem_univ _, e⟩)

abbrev W5 : Dev nD → Valuation τ sig (Elt F) := fun c => StableHlo.after hostOps2 (W4 m c)

/-- A buffer that none of the four segments changes ends as launched. -/
theorem W5_arg (c : Dev nD) (r : Ref sig .tc) (h2 : r ∉ hostOps2_W)
    (h4 : W4 m c (Proc.devRef .tc r) = W2 m c (Proc.devRef .tc r))
    (h1 : ∀ w, Pipeline.arrRef spec0 w ≠ r) (h0 : r ∉ hostOps0_W) :
    W5 m c (Proc.devRef .tc r) = m ((c : Thread nD τ).loc r) :=
  (StableHlo.after_of_writes_sub hostOps2 _ hostOps2_writes h2).trans <| h4.trans <|
    (W2_of_ne m c r h1).trans <| StableHlo.after_of_writes_sub hostOps0 _ hostOps0_writes h0

/-- An input window's array is the same after the second region as before it. -/
theorem W4_in (c : Dev nD) (w : Fin cfg1.W) (hw : (cfg1.win w).isOut = false) :
    W4 m c (Proc.devRef .tc (Pipeline.arrRef spec1 w)) = V2 m c (Pipeline.arrRef spec1 w) :=
  (W4_arr m c w).trans (((dat1 (V2 m) c).arrAt_in w hw _).trans (A_eq1 (V2 m) c w))

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W5 m c) ∗ ∃ r, prngReg c r)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1 ∗ Pipeline.scopedRest spec1 c)
        ⊢ (Pipeline.ΦA spec1 c : sProp 𝕄) := by
      unfold Pipeline.ΦA
      iintro ⟨Hp, -, Hr⟩
      isplitl [Hr]; · iexact Hr
      iexact Hp
    exact h.trans (hin1 (V2 m) c)
  hout c := by
    rw [Pipeline.ownSems0_none]
    have h : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (V2 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W4 m)) ]
theorem main_run (c : Dev nD) : main (F := F) c = Pipeline.Seg.run (segs m) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- The result buffer at the last boundary's contents and every argument as launched: what both claims read. -/
theorem run_post : θ_run defs (onTc (τ := τ) (main (F := F))) ⟨m, fun _ => 0, ρ⟩ (fun r => ∀ c : Dev nD,
      r.2.mem ((c.tc : Thread nD τ).loc main_v5) = W5 m c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨h c _ (mem_uc main_v5 (by decide)),
     (h c _ (mem_uc main_arg0 (by decide))).trans (W5_arg m c main_arg0 (by decide) (W4_of_ne m c main_arg0 (by decide)) (by decide) (by decide)),
     (h c _ (mem_uc main_arg1 (by decide))).trans (W5_arg m c main_arg1 (by decide) (W4_of_ne m c main_arg1 (by decide)) (by decide) (by decide)),
     (h c _ (mem_uc main_arg2 (by decide))).trans (W5_arg m c main_arg2 (by decide) (W4_in m c 3 rfl) (by decide) (by decide)),
     (h c _ (mem_uc main_arg3 (by decide))).trans (W5_arg m c main_arg3 (by decide) (W4_in m c 5 rfl) (by decide) (by decide)),
     (h c _ (mem_uc main_arg4 (by decide))).trans (W5_arg m c main_arg4 (by decide) (W4_in m c 6 rfl) (by decide) (by decide)),
     (h c _ (mem_uc main_arg5 (by decide))).trans (W5_arg m c main_arg5 (by decide) (W4_in m c 4 rfl) (by decide) (by decide)),
     (h c _ (mem_uc main_arg6 (by decide))).trans (W5_arg m c main_arg6 (by decide) (W4_of_ne m c main_arg6 (by decide)) (by decide) (by decide))⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_post m ρ)

end Cert.Kernel.Hand

end
-- ==== Proof.KI.Reg0.lean ====
import proofs.«158585_j49787260895356_1_alg».proof.Proof.Gen.KernelIdeal.Launch
import proofs.«158585_j49787260895356_1_alg».proof.Proof.Gen.KernelIdeal.Skeleton
import proofs.«158585_j49787260895356_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_a : Rect S512x128 := Rect.unit (s := S512x128) ![0, 0] S512x128.size inb_S512x128_S512x128_0_0
abbrev r0_b : Rect S1x128 := Rect.unit (s := S1x128) ![0, 0] S1x128.size inb_S1x128_S1x128_0_0

def out0_2 (x0 : Vec F S512x128 .f32) (x1 : Vec F S1x128 .f32) : Vec F S512x128 .bf16 :=
  View.canon [⟨r0_a, k0_pay2 (View.ld x0 r0_a) (View.ld x1 r0_b)⟩]

def out0_3 (x0 : Vec F S512x128 .f32) (x1 : Vec F S1x128 .f32) : Vec F S512x128 .bf16 :=
  View.canon [⟨r0_a, k0_pay3 (View.ld x0 r0_a) (View.ld x1 r0_b)⟩]

theorem cover0 (p0 : Vec F S512x128 .bf16) (y : S512x128.Idx) :
    ∃ pc ∈ ([⟨r0_a, p0⟩] : List (View.Piece (Elt F) S512x128 .bf16)), y ∈ pc.1.set :=
  View.cover_of_tiled [⟨r0_a, p0⟩] S512x128.size (by rfl) y

set_option maxHeartbeats 1000000 in

theorem sound_kernel0 (c : Dev nD) (E : Set ℕ) (i : grid0.Coords) (arg2 : Memref sig .tc .vmem S512x128 .f32) (harg2 : arg2.IsWhole) (arg3 : Memref sig .tc .vmem S1x128 .f32) (harg3 : arg3.IsWhole)
    (arg4 : Memref sig .tc .vmem S512x128 .bf16) (harg4 : arg4.IsWhole) (arg5 : Memref sig .tc .vmem S512x128 .bf16) (harg5 : arg5.IsWhole)
    (x0 : Vec F S512x128 .f32) (x1 : Vec F S1x128 .f32) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1 ∗ owns (c : Thread nD τ) arg4 fullShare (out0_2 x0 x1) ∗ owns (c : Thread nD τ) arg5 fullShare (out0_3 x0 x1)) -∗ K ⟨⟩))
      ⊢ wp frame (wpE (defs₀ (F := F)) Variants.none c none) E (cc0__quant_kernel i arg2 harg2 arg3 harg3 arg4 harg4 arg5 harg5) K := by
  simp only [cc0__quant_kernel_eq_skeleton]; unfold cc0__quant_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  iexists _; isplitr
  swap; · iexact H3
  ipureintro
  exact View.read_writes_eq_canon _ _ _ (cover0 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Reg1Shared.lean ====
import proofs.«158585_j49787260895356_1_alg».proof.Proof.Gen.KernelIdeal.Launch
import proofs.«158585_j49787260895356_1_alg».proof.Proof.Gen.KernelIdeal.Skeleton
import proofs.«158585_j49787260895356_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

abbrev cond1_1 (i : grid1.Coords) : Prop := (Scalar.cmpi .ne (Scalar.extui (Scalar.cmpi .eq (BitVec.ofNat 32 (i 2).val) 3#32)) 0#32) = 1#1
theorem hcond1_1 : ∀ t : Fin cfg1.N, cond1_1 (grid1.coords t) ↔ t.val % 4 = 3 :=
  (by decide +kernel : ∀ t : Fin grid1.N, cond1_1 (grid1.coords t) ↔ t.val % 4 = 3)

abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S32x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x32 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x512 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S512x512 .f32 := win1_8.stage (cfg1.slots t 8)
abbrev hs1_8 (t : Fin cfg1.N) : (ms1_8 t).IsWhole := hstage1_8 ((cfg1.slots t 8).cast nbuf1_8)

abbrev scM1_0 : Memref sig .tc .vmem S512x32 .f32 := Memref.whole cc1_scratch0
abbrev VS1_0 : View sig .tc .vmem S512x32 .f32 := scM1_0.view

abbrev VO1_8 : View sig .tc .vmem S512x512 .f32 := (Memref.whole cc1_stg8_0 : Memref sig .tc .vmem S512x512 .f32).view

/-- The invariant's shape with the accumulator's part `S` left open, so that it is written once. -/
def PhiWith (c : Dev nD) (S : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S) ∗ (∃ r, prngReg c r))

theorem PhiA1_eq (c : Dev nD) :
    (Pipeline.ΦA spec1 c : sProp 𝕄) = PhiWith c iprop(∃ d, owns (c : Thread nD τ) scM1_0 fullShare d) := by
  unfold Pipeline.ΦA PhiWith; rw [scopedRest1_eq]; simp only [scM1_0, owns_whole]; try rfl

end Cert.KernelIdeal.Hand

end
-- ==== Proof.KI.Reg1RunA.lean ====
import proofs.«158585_j49787260895356_1_alg».proof.Proof.KI.Reg1Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S512x1024 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S32x1024 .f32) (harg8 : arg8.IsWhole) (arg9 : Memref sig .tc .vmem S512x32 .f32) (harg9 : arg9.IsWhole) (arg10 : Memref sig .tc .vmem S1x512 .f32) (harg10 : arg10.IsWhole) (arg11 : Memref sig .tc .vmem S512x512 .f32) (harg11 : arg11.IsWhole) (arg12 : Memref sig .tc .vmem S512x32 .f32) (harg12 : arg12.IsWhole) (hc0 : cond1_0 i) (hc1 : ¬cond1_1 i)
    (x0 : Vec F S512x1024 .f32) (x1 : Vec F S512x1024 .bf16) (x2 : Vec F S512x1024 .bf16) (x3 : Vec F S512x1024 .f32) (x4 : Vec F S512x1024 .f32) (x5 : Vec F S32x1024 .f32) (x6 : Vec F S512x32 .f32) (x7 : Vec F S1x512 .f32) :
    Σ' (L8 : List (View.Piece (Elt F) S512x512 .f32)), { LS0 : List (View.Piece (Elt F) S512x32 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f LS0)) -∗ K ⟨⟩))
          ⊢ wp frame (wpE (defs₀ (F := F)) Variants.none c none) E (cc1__matmul_kernel i arg3 harg3 arg4 harg4 arg5 harg5 arg6 harg6 arg7 harg7 arg8 harg8 arg9 harg9 arg10 harg10 arg11 harg11 arg12 harg12) K } := by
  refine ⟨?_, ?_, fun E K => ?run⟩
  case run =>
    simp only [cc1__matmul_kernel_eq_skeleton]; unfold cc1__matmul_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6; obtain rfl := harg10.eq_unread hf7
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    iexists _; iexact HS0

end Cert.KernelIdeal.Hand

end
-- ==== Proof.KI.Reg1RunB.lean ====
import proofs.«158585_j49787260895356_1_alg».proof.Proof.KI.Reg1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S512x1024 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S32x1024 .f32) (harg8 : arg8.IsWhole) (arg9 : Memref sig .tc .vmem S512x32 .f32) (harg9 : arg9.IsWhole) (arg10 : Memref sig .tc .vmem S1x512 .f32) (harg10 : arg10.IsWhole) (arg11 : Memref sig .tc .vmem S512x512 .f32) (harg11 : arg11.IsWhole) (arg12 : Memref sig .tc .vmem S512x32 .f32) (harg12 : arg12.IsWhole) (hc0 : ¬cond1_0 i) (hc1 : ¬cond1_1 i)
    (x0 : Vec F S512x1024 .f32) (x1 : Vec F S512x1024 .bf16) (x2 : Vec F S512x1024 .bf16) (x3 : Vec F S512x1024 .f32) (x4 : Vec F S512x1024 .f32) (x5 : Vec F S32x1024 .f32) (x6 : Vec F S512x32 .f32) (x7 : Vec F S1x512 .f32) (xo8 : Vec F S512x512 .f32) (xs0 : Vec F S512x32 .f32) :
    Σ' (L8 : List (View.Piece (Elt F) S512x512 .f32)), { LS0 : List (View.Piece (Elt F) S512x32 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xo8 ∗ owns (c : Thread nD τ) arg12 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f LS0)) -∗ K ⟨⟩))
          ⊢ wp frame (wpE (defs₀ (F := F)) Variants.none c none) E (cc1__matmul_kernel i arg3 harg3 arg4 harg4 arg5 harg5 arg6 harg6 arg7 harg7 arg8 harg8 arg9 harg9 arg10 harg10 arg11 harg11 arg12 harg12) K } := by
  refine ⟨?_, ?_, fun E K => ?run⟩
  case run =>
    simp only [cc1__matmul_kernel_eq_skeleton]; unfold cc1__matmul_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6; obtain rfl := harg10.eq_unread hf7
    obtain rfl := harg11.eq_unread hf8; obtain rfl := harg12.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    iexists _; iexact HS0

end Cert.KernelIdeal.Hand

end
-- ==== Proof.KI.Reg1RunC.lean ====
import proofs.«158585_j49787260895356_1_alg».proof.Proof.KI.Reg1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S512x1024 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S32x1024 .f32) (harg8 : arg8.IsWhole) (arg9 : Memref sig .tc .vmem S512x32 .f32) (harg9 : arg9.IsWhole) (arg10 : Memref sig .tc .vmem S1x512 .f32) (harg10 : arg10.IsWhole) (arg11 : Memref sig .tc .vmem S512x512 .f32) (harg11 : arg11.IsWhole) (arg12 : Memref sig .tc .vmem S512x32 .f32) (harg12 : arg12.IsWhole) (hc0 : ¬cond1_0 i) (hc1 : cond1_1 i)
    (x0 : Vec F S512x1024 .f32) (x1 : Vec F S512x1024 .bf16) (x2 : Vec F S512x1024 .bf16) (x3 : Vec F S512x1024 .f32) (x4 : Vec F S512x1024 .f32) (x5 : Vec F S32x1024 .f32) (x6 : Vec F S512x32 .f32) (x7 : Vec F S1x512 .f32) (xo8 : Vec F S512x512 .f32) (xs0 : Vec F S512x32 .f32) :
    Σ' (L8 : List (View.Piece (Elt F) S512x512 .f32)), { LS0 : List (View.Piece (Elt F) S512x32 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xo8 ∗ owns (c : Thread nD τ) arg12 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f LS0)) -∗ K ⟨⟩))
          ⊢ wp frame (wpE (defs₀ (F := F)) Variants.none c none) E (cc1__matmul_kernel i arg3 harg3 arg4 harg4 arg5 harg5 arg6 harg6 arg7 harg7 arg8 harg8 arg9 harg9 arg10 harg10 arg11 harg11 arg12 harg12) K } := by
  refine ⟨?_, ?_, fun E K => ?run⟩
  case run =>
    simp only [cc1__matmul_kernel_eq_skeleton]; unfold cc1__matmul_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6; obtain rfl := harg10.eq_unread hf7
    obtain rfl := harg11.eq_unread hf8; obtain rfl := harg12.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    iexists _; iexact HS0

end Cert.KernelIdeal.Hand

end
-- ==== Proof.KI.Reg1Defs.lean ====
import proofs.«158585_j49787260895356_1_alg».proof.Proof.KI.Reg1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

-- `out1_X_8` and `sout1_X_0`: what each control case's stores leave in the output block and in the accumulator, read back.
section Cases
variable (c : Dev nD) (i : grid1.Coords) (arg3 : Memref sig .tc .vmem S512x1024 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S32x1024 .f32) (harg8 : arg8.IsWhole) (arg9 : Memref sig .tc .vmem S512x32 .f32) (harg9 : arg9.IsWhole) (arg10 : Memref sig .tc .vmem S1x512 .f32) (harg10 : arg10.IsWhole) (arg11 : Memref sig .tc .vmem S512x512 .f32) (harg11 : arg11.IsWhole) (arg12 : Memref sig .tc .vmem S512x32 .f32) (harg12 : arg12.IsWhole)

section CaseA
variable (hc0 : cond1_0 i) (hc1 : ¬cond1_1 i) (x0 : Vec F S512x1024 .f32) (x1 : Vec F S512x1024 .bf16) (x2 : Vec F S512x1024 .bf16) (x3 : Vec F S512x1024 .f32) (x4 : Vec F S512x1024 .f32) (x5 : Vec F S32x1024 .f32) (x6 : Vec F S512x32 .f32) (x7 : Vec F S1x512 .f32)

def out1_A_8 : Vec F S512x512 .f32 :=
  VO1_8.read (Elt F) (VO1_8.writes (Elt F) VO1_8.junk (kernelRun1_A c i arg3 harg3 arg4 harg4 arg5 harg5 arg6 harg6 arg7 harg7 arg8 harg8 arg9 harg9 arg10 harg10 arg11 harg11 arg12 harg12 hc0 hc1 x0 x1 x2 x3 x4 x5 x6 x7).1)

def sout1_A_0 : Vec F S512x32 .f32 :=
  VS1_0.read (Elt F) (VS1_0.writes (Elt F) VS1_0.junk (kernelRun1_A c i arg3 harg3 arg4 harg4 arg5 harg5 arg6 harg6 arg7 harg7 arg8 harg8 arg9 harg9 arg10 harg10 arg11 harg11 arg12 harg12 hc0 hc1 x0 x1 x2 x3 x4 x5 x6 x7).2.1)

end CaseA

section CaseB
variable (hc0 : ¬cond1_0 i) (hc1 : ¬cond1_1 i) (x0 : Vec F S512x1024 .f32) (x1 : Vec F S512x1024 .bf16) (x2 : Vec F S512x1024 .bf16) (x3 : Vec F S512x1024 .f32) (x4 : Vec F S512x1024 .f32) (x5 : Vec F S32x1024 .f32) (x6 : Vec F S512x32 .f32) (x7 : Vec F S1x512 .f32) (xo8 : Vec F S512x512 .f32) (xs0 : Vec F S512x32 .f32)

def out1_B_8 : Vec F S512x512 .f32 :=
  VO1_8.read (Elt F) (VO1_8.writes (Elt F) VO1_8.junk (kernelRun1_B c i arg3 harg3 arg4 harg4 arg5 harg5 arg6 harg6 arg7 harg7 arg8 harg8 arg9 harg9 arg10 harg10 arg11 harg11 arg12 harg12 hc0 hc1 x0 x1 x2 x3 x4 x5 x6 x7 xo8 xs0).1)

def sout1_B_0 : Vec F S512x32 .f32 :=
  VS1_0.read (Elt F) (VS1_0.writes (Elt F) VS1_0.junk (kernelRun1_B c i arg3 harg3 arg4 harg4 arg5 harg5 arg6 harg6 arg7 harg7 arg8 harg8 arg9 harg9 arg10 harg10 arg11 harg11 arg12 harg12 hc0 hc1 x0 x1 x2 x3 x4 x5 x6 x7 xo8 xs0).2.1)

end CaseB

section CaseC
variable (hc0 : ¬cond1_0 i) (hc1 : cond1_1 i) (x0 : Vec F S512x1024 .f32) (x1 : Vec F S512x1024 .bf16) (x2 : Vec F S512x1024 .bf16) (x3 : Vec F S512x1024 .f32) (x4 : Vec F S512x1024 .f32) (x5 : Vec F S32x1024 .f32) (x6 : Vec F S512x32 .f32) (x7 : Vec F S1x512 .f32) (xo8 : Vec F S512x512 .f32) (xs0 : Vec F S512x32 .f32)

def out1_C_8 : Vec F S512x512 .f32 :=
  VO1_8.read (Elt F) (VO1_8.writes (Elt F) VO1_8.junk (kernelRun1_C c i arg3 harg3 arg4 harg4 arg5 harg5 arg6 harg6 arg7 harg7 arg8 harg8 arg9 harg9 arg10 harg10 arg11 harg11 arg12 harg12 hc0 hc1 x0 x1 x2 x3 x4 x5 x6 x7 xo8 xs0).1)

def sout1_C_0 : Vec F S512x32 .f32 :=
  VS1_0.read (Elt F) (VS1_0.writes (Elt F) VS1_0.junk (kernelRun1_C c i arg3 harg3 arg4 harg4 arg5 harg5 arg6 harg6 arg7 harg7 arg8 harg8 arg9 harg9 arg10 harg10 arg11 harg11 arg12 harg12 hc0 hc1 x0 x1 x2 x3 x4 x5 x6 x7 xo8 xs0).2.1)

end CaseC

end Cases

theorem cA0 (t : Fin cfg1.N) (h0 : t.val % 4 = 0) : cond1_0 (grid1.coords t) := (hcond1_0 t).mpr h0
theorem cA1 (t : Fin cfg1.N) (h0 : t.val % 4 = 0) : ¬cond1_1 (grid1.coords t) := fun h => by have := (hcond1_1 t).mp h; omega
theorem cB0 (t : Fin cfg1.N) (h0 : ¬t.val % 4 = 0) : ¬cond1_0 (grid1.coords t) := fun h => h0 ((hcond1_0 t).mp h)
theorem cB1 (t : Fin cfg1.N) (h1 : ¬t.val % 4 = 3) : ¬cond1_1 (grid1.coords t) := fun h => h1 ((hcond1_1 t).mp h)
theorem cC0 (t : Fin cfg1.N) (h1 : t.val % 4 = 3) : ¬cond1_0 (grid1.coords t) := fun h => by have := (hcond1_0 t).mp h; omega
theorem cC1 (t : Fin cfg1.N) (h1 : t.val % 4 = 3) : cond1_1 (grid1.coords t) := (hcond1_1 t).mpr h1

/-- What point `t` leaves in (output block, accumulator), by its case; `p` is what the point before left. -/
abbrev ptA (c : Dev nD) (t : Fin cfg1.N) (h0 : t.val % 4 = 0) : Vec F S512x512 .f32 × Vec F S512x32 .f32 :=
  (out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (cA0 t h0) (cA1 t h0) (iblk1 V c 0 t) (iblk1 V c 1 t) (iblk1 V c 2 t) (iblk1 V c 3 t) (iblk1 V c 4 t) (iblk1 V c 5 t) (iblk1 V c 6 t) (iblk1 V c 7 t),
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (cA0 t h0) (cA1 t h0) (iblk1 V c 0 t) (iblk1 V c 1 t) (iblk1 V c 2 t) (iblk1 V c 3 t) (iblk1 V c 4 t) (iblk1 V c 5 t) (iblk1 V c 6 t) (iblk1 V c 7 t))
abbrev ptB (c : Dev nD) (t : Fin cfg1.N) (h0 : ¬t.val % 4 = 0) (h1 : ¬t.val % 4 = 3) (p : Vec F S512x512 .f32 × Vec F S512x32 .f32) : Vec F S512x512 .f32 × Vec F S512x32 .f32 :=
  (out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (cB0 t h0) (cB1 t h1) (iblk1 V c 0 t) (iblk1 V c 1 t) (iblk1 V c 2 t) (iblk1 V c 3 t) (iblk1 V c 4 t) (iblk1 V c 5 t) (iblk1 V c 6 t) (iblk1 V c 7 t) p.1 p.2,
   sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (cB0 t h0) (cB1 t h1) (iblk1 V c 0 t) (iblk1 V c 1 t) (iblk1 V c 2 t) (iblk1 V c 3 t) (iblk1 V c 4 t) (iblk1 V c 5 t) (iblk1 V c 6 t) (iblk1 V c 7 t) p.1 p.2)
abbrev ptC (c : Dev nD) (t : Fin cfg1.N) (h1 : t.val % 4 = 3) (p : Vec F S512x512 .f32 × Vec F S512x32 .f32) : Vec F S512x512 .f32 × Vec F S512x32 .f32 :=
  (out1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (cC0 t h1) (cC1 t h1) (iblk1 V c 0 t) (iblk1 V c 1 t) (iblk1 V c 2 t) (iblk1 V c 3 t) (iblk1 V c 4 t) (iblk1 V c 5 t) (iblk1 V c 6 t) (iblk1 V c 7 t) p.1 p.2,
   sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (cC0 t h1) (cC1 t h1) (iblk1 V c 0 t) (iblk1 V c 1 t) (iblk1 V c 2 t) (iblk1 V c 3 t) (iblk1 V c 4 t) (iblk1 V c 5 t) (iblk1 V c 6 t) (iblk1 V c 7 t) p.1 p.2)

def outsAt1 (c : Dev nD) : (n : ℕ) → n < cfg1.N → Vec F S512x512 .f32 × Vec F S512x32 .f32
  | 0, hn => ptA V c ⟨0, hn⟩ (Nat.zero_mod 4)
  | n + 1, hn =>
    if h0 : (n + 1) % 4 = 0 then ptA V c ⟨n + 1, hn⟩ h0
    else if h1 : (n + 1) % 4 = 3 then ptC V c ⟨n + 1, hn⟩ h1 (outsAt1 c n (Nat.lt_of_succ_lt hn))
    else ptB V c ⟨n + 1, hn⟩ h0 h1 (outsAt1 c n (Nat.lt_of_succ_lt hn))

theorem outsAt1_A (c : Dev nD) (t : Fin cfg1.N) (h0 : t.val % 4 = 0) : outsAt1 V c t.val t.isLt = ptA V c t h0 := by
  obtain ⟨n, hn⟩ := t
  cases n with
  | zero => exact rfl
  | succ n => exact (dif_pos h0).trans rfl

theorem outsAt1_B (c : Dev nD) (t : Fin cfg1.N) (h0 : ¬t.val % 4 = 0) (h1 : ¬t.val % 4 = 3) :
    outsAt1 V c t.val t.isLt = ptB V c t h0 h1 (outsAt1 V c (t.val - 1) (Nat.lt_of_le_of_lt (Nat.sub_le _ _) t.isLt)) := by
  obtain ⟨n, hn⟩ := t
  cases n with
  | zero => exact absurd (Nat.zero_mod 4) h0
  | succ n => exact (dif_neg h0).trans ((dif_neg h1).trans rfl)

theorem outsAt1_C (c : Dev nD) (t : Fin cfg1.N) (h1 : t.val % 4 = 3) :
    outsAt1 V c t.val t.isLt = ptC V c t h1 (outsAt1 V c (t.val - 1) (Nat.lt_of_le_of_lt (Nat.sub_le _ _) t.isLt)) := by
  obtain ⟨n, hn⟩ := t
  cases n with
  | zero => exact (by exfalso; dsimp only at h1; omega)
  | succ n =>
    have h0 : ¬(n + 1) % 4 = 0 := fun h => by dsimp only at h1; omega
    exact (dif_neg h0).trans ((dif_pos h1).trans rfl)

/-- The invariant before point `n`: the accumulator holds what point `n - 1` left in it. -/
def PhiS1 (c : Dev nD) : (n : ℕ) → n ≤ cfg1.N → sProp 𝕄
  | 0, _ => Pipeline.ΦA spec1 c
  | n + 1, hn => PhiWith c (owns (c : Thread nD τ) scM1_0 fullShare (outsAt1 V c n hn).2)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = PhiWith c (owns (c : Thread nD τ) scM1_0 fullShare (outsAt1 V c n hn).2) := rfl

theorem PhiS1_pos (c : Dev nD) (n : ℕ) (h : n ≤ cfg1.N) (hz : n ≠ 0) :
    PhiS1 V c n h = PhiWith c (owns (c : Thread nD τ) scM1_0 fullShare (outsAt1 V c (n - 1) (by omega)).2) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt).1 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl) (fun t => by rw [after1_7]; unfold Dat.blockOf iblk1; rw [A_eq1]; try rfl) t d).trans
    (by unfold Dat.fetched Dat.blockOf iblk1; rw [A_eq1]; try rfl)

theorem before1_8_pos (c : Dev nD) (t : Fin cfg1.N) (h0 : ¬t.val % 4 = 0) (d) :
    (dat1 V c).before 8 t d = (outsAt1 V c (t.val - 1) (Nat.lt_of_le_of_lt (Nat.sub_le _ _) t.isLt)).1 :=
  ((dat1 V c).before_out_kept 8 rfl t (fun hz => h0 (by rw [hz]))
    (by
      have h3 : ¬(cfg1.win 8).flush ⟨t.val - 1, Nat.lt_of_le_of_lt (Nat.sub_le _ _) t.isLt⟩ = true := fun h => by
        have := (flush1_8 ⟨t.val - 1, Nat.lt_of_le_of_lt (Nat.sub_le _ _) t.isLt⟩).mp h
        dsimp only at this; omega
      exact (Bool.not_eq_true _).mp h3)
    (fun _ => rfl) (fun _ _ => rfl) d).trans (after1_8 V c ⟨t.val - 1, Nat.lt_of_le_of_lt (Nat.sub_le _ _) t.isLt⟩)

end Region1

end Cert.KernelIdeal.Hand

end
-- ==== Proof.KI.Reg1.lean ====
import proofs.«158585_j49787260895356_1_alg».proof.Proof.KI.Reg1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t))

set_option maxHeartbeats 4000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4, after1_5, after1_6, after1_7, after1_8]
  by_cases h0 : t.val % 4 = 0
  on_goal 1 =>
    rw [outsAt1_A V c t h0]; unfold ptA out1_A_8 sout1_A_0; dsimp only
    by_cases hz : t.val = 0
    on_goal 1 => rw [PhiS1_castSucc V c t, PhiS1_zero V c _ _ hz, PhiA1_eq]
    on_goal 2 => rw [PhiS1_castSucc V c t, PhiS1_pos V c _ _ hz]
  on_goal 3 =>
    have hz : t.val ≠ 0 := fun hz => h0 (by rw [hz])
    simp only [before1_8_pos V c t h0]
    by_cases h1 : t.val % 4 = 3
    on_goal 1 => rw [outsAt1_C V c t h1]; unfold ptC out1_C_8 sout1_C_0; dsimp only
    on_goal 2 => rw [outsAt1_B V c t h0 h1]; unfold ptB out1_B_8 sout1_B_0; dsimp only
    all_goals rw [PhiS1_castSucc V c t, PhiS1_pos V c _ _ hz]
  all_goals
    unfold PhiWith
    iintro ⟨⟨⟨R1, R2, R3, R4, R5, R6, R7, R8, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  on_goal 1 => iapply ((kernelRun1_A c (grid1.coords t) _ _ _ _ _ _ _ _ _ _ _ _ _ _ _ _ _ _ _ _ (cA0 t h0) (cA1 t h0) (iblk1 V c 0 t) (iblk1 V c 1 t) (iblk1 V c 2 t) (iblk1 V c 3 t) (iblk1 V c 4 t) (iblk1 V c 5 t) (iblk1 V c 6 t) (iblk1 V c 7 t)).2.2 Set.univ _)
  on_goal 2 => iapply ((kernelRun1_A c (grid1.coords t) _ _ _ _ _ _ _ _ _ _ _ _ _ _ _ _ _ _ _ _ (cA0 t h0) (cA1 t h0) (iblk1 V c 0 t) (iblk1 V c 1 t) (iblk1 V c 2 t) (iblk1 V c 3 t) (iblk1 V c 4 t) (iblk1 V c 5 t) (iblk1 V c 6 t) (iblk1 V c 7 t)).2.2 Set.univ _)
  on_goal 3 => iapply ((kernelRun1_C c (grid1.coords t) _ _ _ _ _ _ _ _ _ _ _ _ _ _ _ _ _ _ _ _ (cC0 t h1) (cC1 t h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).1 (outsAt1 V c (t.val - 1) (Nat.lt_of_le_of_lt (Nat.sub_le _ _) t.isLt)).2).2.2 Set.univ _)
  on_goal 4 => iapply ((kernelRun1_B c (grid1.coords t) _ _ _ _ _ _ _ _ _ _ _ _ _ _ _ _ _ _ _ _ (cB0 t h0) (cB1 t h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).1 (outsAt1 V c (t.val - 1) (Nat.lt_of_le_of_lt (Nat.sub_le _ _) t.isLt)).2).2.2 Set.univ _)
  all_goals
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
  on_goal 1 => isplitl [H8]; · iexists _; iexact H8
  on_goal 1 => isplitl [HS0]; · iexact HS0
  on_goal 2 => isplitl [H8]; · iexists _; iexact H8
  on_goal 2 => isplitl [HS0]; · iexists _; iexact HS0
  on_goal 3 => isplitl [H8]; · iexact H8
  on_goal 3 => isplitl [HS0]; · iexact HS0
  on_goal 4 => isplitl [H8]; · iexact H8
  on_goal 4 => isplitl [HS0]; · iexact HS0
  all_goals
    iintro ⟨H0, H1, H2, H3, H4, H5, H6, H7, ⟨%e8, H8⟩, ⟨%es0, HS0⟩⟩
    isplitl [R1 R2 R3 R4 R5 R6 R7 R8 HS0 Hg]
    · isplitl [R1 R2 R3 R4 R5 R6 R7 R8 HS0]
      · isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        unfold owns; iexists _; isplitr
        swap; · iexact HS0
        ipureintro
        exact View.read_writes_of_cover _ _ _ _ _ fun y => View.cover_of_tiledL _ S512x32.size (by sl_kernel_rfl) y
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro
    exact View.read_writes_of_cover _ _ _ _ _ fun y => View.cover_of_tiledL _ S512x512.size (by sl_kernel_rfl) y

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]; unfold PhiWith
  iintro ⟨⟨R1, R2, R3, R4, R5, R6, R7, R8, HS0⟩, Hg⟩
  isplitl [R1 R2 R3 R4 R5 R6 R7 R8 HS0]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexists _; iexact HS0
  iexact Hg

theorem hout1 (c : Dev nD) : (dat1 V c).Φ (Fin.last cfg1.N) ⊢ Pipeline.ΦA spec1 c :=
  Phi_out1 V c _ (by rw [Fin.val_last]; have : cfg1.N = 512 := N_1; omega)

end Region1

end Cert.KernelIdeal.Hand

end
-- ==== Proof.KI.Run.lean ====
import proofs.«158585_j49787260895356_1_alg».proof.Proof.KI.Reg0
import proofs.«158585_j49787260895356_1_alg».proof.Proof.KI.Reg1
import proofs.«158585_j49787260895356_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m ((c : Dev nD), b)

abbrev W1 : Dev nD → Valuation τ sig (Elt F) := fun c => StableHlo.after hostOps0 (W0 m c)
abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

def W4 (c : Dev nD) : Valuation τ sig (Elt F) :=
  Pipeline.withArrays spec1 c (W2 m c) fun w => (dat1 (V2 m) c).arrAt w cfg1.N
theorem W4_arr (c : Dev nD) (w : Fin cfg1.W) :
    W4 m c (Proc.devRef .tc (Pipeline.arrRef spec1 w)) = (dat1 (V2 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W2 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V2 m) c).arrAt w cfg1.N = V4 m c (Pipeline.arrRef spec1 w) :=
  (W4_arr m c w).symm
theorem hrest1 (c : Dev nD) : ∀ b, b ∉ Finset.univ.image (Pipeline.arrRef spec1) → V4 m c b = V2 m c b :=
  fun b hb => W4_of_ne m c b fun w e => hb (Finset.mem_image.mpr ⟨w, Finset.mem_univ _, e⟩)

abbrev W5 : Dev nD → Valuation τ sig (Elt F) := fun c => StableHlo.after hostOps2 (W4 m c)

/-- A buffer that none of the four segments changes ends as launched. -/
theorem W5_arg (c : Dev nD) (r : Ref sig .tc) (h2 : r ∉ hostOps2_W)
    (h4 : W4 m c (Proc.devRef .tc r) = W2 m c (Proc.devRef .tc r))
    (h1 : ∀ w, Pipeline.arrRef spec0 w ≠ r) (h0 : r ∉ hostOps0_W) :
    W5 m c (Proc.devRef .tc r) = m ((c : Thread nD τ).loc r) :=
  (StableHlo.after_of_writes_sub hostOps2 _ hostOps2_writes h2).trans <| h4.trans <|
    (W2_of_ne m c r h1).trans <| StableHlo.after_of_writes_sub hostOps0 _ hostOps0_writes h0

/-- An input window's array is the same after the second region as before it. -/
theorem W4_in (c : Dev nD) (w : Fin cfg1.W) (hw : (cfg1.win w).isOut = false) :
    W4 m c (Proc.devRef .tc (Pipeline.arrRef spec1 w)) = V2 m c (Pipeline.arrRef spec1 w) :=
  (W4_arr m c w).trans (((dat1 (V2 m) c).arrAt_in w hw _).trans (A_eq1 (V2 m) c w))

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W5 m c) ∗ ∃ r, prngReg c r)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1 ∗ Pipeline.scopedRest spec1 c)
        ⊢ (Pipeline.ΦA spec1 c : sProp 𝕄) := by
      unfold Pipeline.ΦA
      iintro ⟨Hp, -, Hr⟩
      isplitl [Hr]; · iexact Hr
      iexact Hp
    exact h.trans (hin1 (V2 m) c)
  hout c := by
    rw [Pipeline.ownSems0_none]
    have h : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (V2 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W4 m)) ]
theorem main_run (c : Dev nD) : main (F := F) c = Pipeline.Seg.run (segs m) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- The result buffer at the last boundary's contents and every argument as launched: what both claims read. -/
theorem run_post : θ_run defs (onTc (τ := τ) (main (F := F))) ⟨m, fun _ => 0, ρ⟩ (fun r => ∀ c : Dev nD,
      r.2.mem ((c.tc : Thread nD τ).loc main_v5) = W5 m c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨h c _ (mem_uc main_v5 (by decide)),
     (h c _ (mem_uc main_arg0 (by decide))).trans (W5_arg m c main_arg0 (by decide) (W4_of_ne m c main_arg0 (by decide)) (by decide) (by decide)),
     (h c _ (mem_uc main_arg1 (by decide))).trans (W5_arg m c main_arg1 (by decide) (W4_of_ne m c main_arg1 (by decide)) (by decide) (by decide)),
     (h c _ (mem_uc main_arg2 (by decide))).trans (W5_arg m c main_arg2 (by decide) (W4_in m c 3 rfl) (by decide) (by decide)),
     (h c _ (mem_uc main_arg3 (by decide))).trans (W5_arg m c main_arg3 (by decide) (W4_in m c 5 rfl) (by decide) (by decide)),
     (h c _ (mem_uc main_arg4 (by decide))).trans (W5_arg m c main_arg4 (by decide) (W4_in m c 6 rfl) (by decide) (by decide)),
     (h c _ (mem_uc main_arg5 (by decide))).trans (W5_arg m c main_arg5 (by decide) (W4_in m c 4 rfl) (by decide) (by decide)),
     (h c _ (mem_uc main_arg6 (by decide))).trans (W5_arg m c main_arg6 (by decide) (W4_of_ne m c main_arg6 (by decide)) (by decide) (by decide))⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_post m ρ)

end Cert.KernelIdeal.Hand

end
-- ==== Proof.Spec.lean ====
import Idealize.ShloMosaic.PureOps.Ideal
import Idealize.ShloMosaic.PureOps.Ideal.Laws

noncomputable section

namespace Cert.Spec

open Idealize.ShloMosaic

def eps : EReal := Ideal.ofBits .f32 0x2B8CBCCC#32
def qmax : EReal := Ideal.ofBits .f32 0x40E00000#32
def qmin : EReal := Ideal.ofBits .f32 0xC0E00000#32
def negInf : EReal := Ideal.ofBits .f32 0xFF800000#32

def rnd (x : EReal) : EReal := Ideal.liftRound Ideal.roundHalfEven x

def max16 (f : Fin 16 → EReal) : EReal := (Finset.univ : Finset (Fin 16)).fold max negInf f

def chan (g : Fin 256) (k : Fin 16) : Fin 4096 := ⟨16 * g.val + k.val, by omega⟩

def runOf (i : Fin 4096) : Fin 256 := ⟨i.val / 16, by omega⟩

def smooth (x : Fin 8192 → Fin 4096 → EReal) (s : Fin 4096 → EReal) (r : Fin 8192) (i : Fin 4096) : EReal := x r i * s i

def scaleOf (f : Fin 4096 → EReal) (g : Fin 256) : EReal :=
  Ideal.div (max eps (max16 fun k => max (f (chan g k)) (-(f (chan g k))))) qmax

def quant (f : Fin 4096 → EReal) (i : Fin 4096) : EReal :=
  min qmax (max qmin (rnd (Ideal.div (f i) (scaleOf f (runOf i))))) * scaleOf f (runOf i)

def layerOf (xq xs x : Fin 8192 → Fin 4096 → EReal) (wq : Fin 4096 → Fin 4096 → EReal) (la : Fin 32 → Fin 4096 → EReal)
    (lb : Fin 4096 → Fin 32 → EReal) (ws : Fin 4096 → Fin 4096 → EReal) (bias : Fin 4096 → EReal) (r : Fin 8192) (o : Fin 4096) : EReal :=
  (((∑ i, xq r i * wq o i) + (∑ q : Fin 32, (∑ i, xs r i * la q i) * lb o q)) + (∑ i, x r i * ws o i)) + bias o

def layer (x : Fin 8192 → Fin 4096 → EReal) (s : Fin 4096 → EReal) (wq : Fin 4096 → Fin 4096 → EReal) (la : Fin 32 → Fin 4096 → EReal)
    (lb : Fin 4096 → Fin 32 → EReal) (ws : Fin 4096 → Fin 4096 → EReal) (bias : Fin 4096 → EReal) (r : Fin 8192) (o : Fin 4096) : EReal :=
  layerOf (fun r => quant (smooth x s r)) (smooth x s) x wq la lb ws bias r o

end Cert.Spec

end
-- ==== Proof.SpecArr.lean ====
import Idealize.ShloMosaic.Lib.ValueIdx
import proofs.«158585_j49787260895356_1_alg».proof.Proof.Spec

noncomputable section

namespace Cert.Spec

open Idealize.ShloMosaic Idealize.ShloMosaic.ValueIdx

def rowOf (b : Fin 4) (s : Fin 2048) : Fin 8192 := ⟨2048 * b.val + s.val, by omega⟩

def batchOf (r : Fin 8192) : Fin 4 := ⟨r.val / 2048, by omega⟩
def posOf (r : Fin 8192) : Fin 2048 := ⟨r.val % 2048, Nat.mod_lt _ (by norm_num)⟩

def rows3 (x : (⟨3, ![4, 2048, 4096]⟩ : Shape).Idx → EReal) (r : Fin 8192) (i : Fin 4096) : EReal := x (ix3 (batchOf r) (posOf r) i)

def mat {a b : Nat} (w : (⟨2, ![a, b]⟩ : Shape).Idx → EReal) (p : Fin a) (q : Fin b) : EReal := w (ix2 p q)
def vec {a : Nat} (v : (⟨1, ![a]⟩ : Shape).Idx → EReal) (p : Fin a) : EReal := v (ix1 p)

def result (x : (⟨3, ![4, 2048, 4096]⟩ : Shape).Idx → EReal) (s : (⟨1, ![4096]⟩ : Shape).Idx → EReal)
    (wq : (⟨2, ![4096, 4096]⟩ : Shape).Idx → EReal) (la : (⟨2, ![32, 4096]⟩ : Shape).Idx → EReal) (lb : (⟨2, ![4096, 32]⟩ : Shape).Idx → EReal)
    (ws : (⟨2, ![4096, 4096]⟩ : Shape).Idx → EReal) (bias : (⟨1, ![4096]⟩ : Shape).Idx → EReal) :
    (⟨3, ![4, 2048, 4096]⟩ : Shape).Idx → EReal :=
  fun j => layer (rows3 x) (vec s) (mat wq) (mat la) (mat lb) (mat ws) (vec bias)
    (rowOf ⟨(j 0).val, (j 0).isLt⟩ ⟨(j 1).val, (j 1).isLt⟩) ⟨(j 2).val, (j 2).isLt⟩

end Cert.Spec

end
-- ==== Proof.KI.FinalIdx.lean ====
import Idealize.ShloMosaic.Lib.Pipeline.Value
import Idealize.ShloMosaic.Lib.ValueIdx
import Idealize.ShloMosaic.Lib.ValueLayout
import proofs.«158585_j49787260895356_1_alg».proof.Proof.SpecArr

noncomputable section

namespace Cert.Spec

open Idealize.ShloMosaic Idealize.ShloMosaic.ValueIdx

variable {α : Type}

theorem shapeCast_rows_apply (y : (⟨2, ![8192, 4096]⟩ : Shape).Idx → α)
    (h : (⟨2, ![8192, 4096]⟩ : Shape).ShapeCasts ⟨3, ![4, 2048, 4096]⟩) (b : Fin 4) (s : Fin 2048) (o : Fin 4096) :
    shapeCast ⟨3, ![4, 2048, 4096]⟩ y h (ix3 b s o) = y (ix2 (rowOf b s) o) :=
  shapeCast_apply y h _ _ (by
    rw [Shape.rowMajor_val_three, Shape.rowMajor_val_two]
    show (2048 * b.val + s.val) * 4096 + o.val = (b.val * 2048 + s.val) * 4096 + o.val
    omega)

theorem shapeCast_flat_rows3 (x : (⟨3, ![4, 2048, 4096]⟩ : Shape).Idx → EReal)
    (h : (⟨3, ![4, 2048, 4096]⟩ : Shape).ShapeCasts ⟨2, ![8192, 4096]⟩) (r : Fin 8192) (i : Fin 4096) :
    shapeCast ⟨2, ![8192, 4096]⟩ x h (ix2 r i) = rows3 x r i :=
  shapeCast_apply x h _ (ix3 (batchOf r) (posOf r) i) (by
    rw [Shape.rowMajor_val_three, Shape.rowMajor_val_two]
    show (r.val / 2048 * 2048 + r.val % 2048) * 4096 + i.val = r.val * 4096 + i.val
    omega)

theorem batchOf_rowOf (b : Fin 4) (s : Fin 2048) : batchOf (rowOf b s) = b := by
  apply Fin.ext; show (2048 * b.val + s.val) / 2048 = b.val; omega
theorem posOf_rowOf (b : Fin 4) (s : Fin 2048) : posOf (rowOf b s) = s := by
  apply Fin.ext; show (2048 * b.val + s.val) % 2048 = s.val; omega

end Cert.Spec

end
-- ==== Proof.KI.FinalChain.lean ====
import proofs.«158585_j49787260895356_1_alg».proof.Proof.KI.FinalIdx

noncomputable section

namespace Cert.Spec

open Idealize.ShloMosaic Idealize.ShloMosaic.ValueIdx

theorem result_of_chain
    (A0 : (⟨3, ![4, 2048, 4096]⟩ : Shape).Idx → EReal) (A1 : (⟨1, ![4096]⟩ : Shape).Idx → EReal)
    (A2 : (⟨2, ![4096, 4096]⟩ : Shape).Idx → EReal) (A3 : (⟨2, ![32, 4096]⟩ : Shape).Idx → EReal)
    (A4 : (⟨2, ![4096, 32]⟩ : Shape).Idx → EReal) (A5 : (⟨2, ![4096, 4096]⟩ : Shape).Idx → EReal)
    (A6 : (⟨1, ![4096]⟩ : Shape).Idx → EReal)
    (h32 : (⟨3, ![4, 2048, 4096]⟩ : Shape).ShapeCasts ⟨2, ![8192, 4096]⟩)
    (h12 : (⟨1, ![4096]⟩ : Shape).ShapeCasts ⟨2, ![1, 4096]⟩)
    (h23 : (⟨2, ![8192, 4096]⟩ : Shape).ShapeCasts ⟨3, ![4, 2048, 4096]⟩)
    (v0 v30 v31 v4 : (⟨2, ![8192, 4096]⟩ : Shape).Idx → EReal) (v1 v2 : (⟨2, ![1, 4096]⟩ : Shape).Idx → EReal)
    (v5 : (⟨3, ![4, 2048, 4096]⟩ : Shape).Idx → EReal)
    (e0 : v0 = shapeCast ⟨2, ![8192, 4096]⟩ A0 h32) (e1 : v1 = shapeCast ⟨2, ![1, 4096]⟩ A1 h12)
    (e2 : v2 = shapeCast ⟨2, ![1, 4096]⟩ A6 h12)
    (e30 : v30 = fun j => smooth (fun r i => v0 (ix2 r i)) (fun i => v1 (ix2 (0 : Fin 1) i))
      ⟨(j 0).val, (j 0).isLt⟩ ⟨(j 1).val, (j 1).isLt⟩)
    (e31 : v31 = fun j => quant (smooth (fun r i => v0 (ix2 r i)) (fun i => v1 (ix2 (0 : Fin 1) i))
      ⟨(j 0).val, (j 0).isLt⟩) ⟨(j 1).val, (j 1).isLt⟩)
    (e4 : v4 = fun j => layerOf (fun r i => v31 (ix2 r i)) (fun r i => v30 (ix2 r i)) (fun r i => v0 (ix2 r i))
      (fun o i => A2 (ix2 o i)) (fun q i => A3 (ix2 q i)) (fun o q => A4 (ix2 o q)) (fun o i => A5 (ix2 o i))
      (fun o => v2 (ix2 (0 : Fin 1) o)) ⟨(j 0).val, (j 0).isLt⟩ ⟨(j 1).val, (j 1).isLt⟩)
    (e5 : v5 = shapeCast ⟨3, ![4, 2048, 4096]⟩ v4 h23) :
    v5 = result A0 A1 A2 A3 A4 A5 A6 := by
  subst e0 e1 e2 e30 e31 e4 e5
  funext j
  obtain ⟨b, s, o, rfl⟩ : ∃ b s o, j = ix3 b s o := ⟨j 0, j 1, j 2, eq_ix3 j⟩
  rw [shapeCast_rows_apply]
  simp only [shapeCast_flat_rows3, shapeCast_a_1a_apply]
  rfl

end Cert.Spec

end
-- ==== Proof.KI.Final.lean ====
import proofs.«158585_j49787260895356_1_alg».proof.Proof.KI.Run
import proofs.«158585_j49787260895356_1_alg».proof.Proof.KI.FinalChain
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo Idealize.ShloMosaic.ValueIdx

section Host
variable {F : FTy → Type} [FloatOps F]
variable (m : (ℓ : Loc nD τ sig) → Buf (Elt F) ℓ)

theorem W1_main_v0 (c : Dev nD) : W1 m c (Proc.devRef .tc main_v0)
    = shapeCast S8192x4096 (m ((c : Thread nD τ).loc main_arg0)) Facts₀.shapeCasts_S4x2048x4096_S8192x4096 := by
  show StableHlo.after (hostOps0 (F := F)) (fun b => m ((c : Dev nD), b)) (Proc.devRef .tc main_v0) = _
  after_results; rfl
theorem W1_main_v1 (c : Dev nD) : W1 m c (Proc.devRef .tc main_v1)
    = shapeCast S1x4096 (m ((c : Thread nD τ).loc main_arg1)) Facts₀.shapeCasts_S4096_S1x4096 := by
  show StableHlo.after (hostOps0 (F := F)) (fun b => m ((c : Dev nD), b)) (Proc.devRef .tc main_v1) = _
  after_results; rfl
theorem W1_main_v2 (c : Dev nD) : W1 m c (Proc.devRef .tc main_v2)
    = shapeCast S1x4096 (m ((c : Thread nD τ).loc main_arg6)) Facts₀.shapeCasts_S4096_S1x4096 := by
  show StableHlo.after (hostOps0 (F := F)) (fun b => m ((c : Dev nD), b)) (Proc.devRef .tc main_v2) = _
  after_results; rfl
theorem W5_main_v5 (c : Dev nD) : W5 m c (Proc.devRef .tc main_v5)
    = shapeCast S4x2048x4096 (W4 m c (Proc.devRef .tc main_v4)) Facts₀.shapeCasts_S8192x4096_S4x2048x4096 := by
  show StableHlo.after (hostOps2 (F := F)) (W4 m c) (Proc.devRef .tc main_v5) = _
  after_results; rfl

theorem V2_main_v0 (c : Dev nD) : V2 m c main_v0 = V1 m c main_v0 :=
  (W2_arr m c 0).trans (((dat0 (V1 m) c).arrAt_in 0 rfl _).trans (A_eq0 (V1 m) c 0))

theorem V2_main_v2 (c : Dev nD) : V2 m c main_v2 = V1 m c main_v2 := W2_of_ne m c main_v2 (by decide)

/-- An array that neither the first host operations nor the first region write is, at the second region, as it was at the start. -/
theorem V2_arg (c : Dev nD) (b : Ref sig .tc) (h1 : ∀ w, Pipeline.arrRef spec0 w ≠ b) (h0 : b ∉ hostOps0_W) :
    V2 m c b = m ((c : Thread nD τ).loc b) :=
  (W2_of_ne m c b h1).trans (StableHlo.after_of_writes_sub hostOps0 _ hostOps0_writes h0)

end Host

end Cert.KernelIdeal.Hand

end
-- ==== Proof.KI.Val0Pay.lean ====
import proofs.«158585_j49787260895356_1_alg».proof.Proof.Gen.KernelIdeal.Skeleton
import proofs.«158585_j49787260895356_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

def quantOf (a : EReal) (run : Fin 16 → EReal) : EReal :=
  min Cert.Spec.qmax (max Cert.Spec.qmin (Cert.Spec.rnd (Ideal.div a
      (Ideal.div (max Cert.Spec.eps (Cert.Spec.max16 fun k => max (run k) (-(run k)))) Cert.Spec.qmax))))
    * Ideal.div (max Cert.Spec.eps (Cert.Spec.max16 fun k => max (run k) (-(run k)))) Cert.Spec.qmax

theorem quant_eq_quantOf (f : Fin 4096 → EReal) (i : Fin 4096) :
    Cert.Spec.quant f i = quantOf (f i) (fun k => f (Cert.Spec.chan (Cert.Spec.runOf i) k)) := rfl

section Layout
variable {α : Type}

theorem runs_apply (v : S512x128.Idx → α) (h : S512x128.ShapeCasts S512x8x16) (p : Fin 512) (g : Fin 8) (k : Fin 16) :
    shapeCast S512x8x16 v h (ix3 p g k) = v (ix2 p ⟨16 * g.val + k.val, by omega⟩) :=
  shapeCast_apply v h _ _ (by
    rw [Shape.rowMajor_val_three, Shape.rowMajor_val_two]
    show p.val * 128 + (16 * g.val + k.val) = (p.val * 8 + g.val) * 16 + k.val
    omega)

theorem unruns_apply (w : S512x8x16.Idx → α) (h : S512x8x16.ShapeCasts S512x128) (p : Fin 512) (q : Fin 128) :
    shapeCast S512x128 w h (ix2 p q) = w (ix3 p (⟨q.val / 16, by omega⟩ : Fin 8) (⟨q.val % 16, Nat.mod_lt _ (by norm_num)⟩ : Fin 16)) :=
  shapeCast_apply w h _ _ (by
    rw [Shape.rowMajor_val_three, Shape.rowMajor_val_two]
    show (p.val * 8 + q.val / 16) * 16 + q.val % 16 = p.val * 128 + q.val
    omega)

theorem keep_apply (u : S512x8.Idx → α) (h : S512x8.ShapeCasts S512x8x1) (p : Fin 512) (g : Fin 8) (z : Fin 1) :
    shapeCast S512x8x1 u h (ix3 p g z) = u (ix2 p g) :=
  shapeCast_apply u h _ _ (by
    have hz : z.val = 0 := by omega
    rw [Shape.rowMajor_val_three, Shape.rowMajor_val_two]
    show p.val * 8 + g.val = (p.val * 8 + g.val) * 1 + z.val
    omega)

theorem spread_apply (u : S512x8x1.Idx → α) (h : S512x8x1.Broadcasts S512x8x16) (p : Fin 512) (g : Fin 8) (k : Fin 16) :
    broadcastTo S512x8x16 u h (ix3 p g k) = u (ix3 p g (0 : Fin 1)) := by
  refine broadcastTo_apply u h (ix3 p g k) (ix3 p g (0 : Fin 1)) fun ax => ?_
  match ax with
  | ⟨0, _⟩ => rfl
  | ⟨1, _⟩ => rfl
  | ⟨2, _⟩ => rfl

end Layout

theorem runMax_apply (src : FVec Ideal S512x8x16 .f32) (h : S512x8x16.Reduces [2] S512x8) (hφ : FKind.Formats .f32)
    (hacc : (0xFF800000#32 : BitVec 32) = 0xFF800000#32) (p : Fin 512) (g : Fin 8) :
    multiReduction .maximumf [2] S512x8 src 0xFF800000#32 h hφ hacc (ix2 p g) = Cert.Spec.max16 fun k => src (ix3 p g k) :=
  (Ideal.multiReduction_maximumf_single src 0xFF800000#32 h hφ hacc (ix2 p g)).trans
    (congrArg (fun f : Fin 16 → EReal => (Finset.univ : Finset (Fin 16)).fold max (Ideal.ofBits .f32 0xFF800000#32) f)
      (funext fun k => congrArg src (funext fun ax => Fin.ext (by
        match ax with
        | ⟨0, _⟩ => rfl
        | ⟨1, _⟩ => rfl
        | ⟨2, _⟩ => rfl))))

theorem pay1_apply (x0 : Vec Ideal S512x128 .f32) (x1 : Vec Ideal S1x128 .f32) (p : Fin 512) (q : Fin 128) :
    k0_pay1 x0 x1 (ix2 p q) = x0 (ix2 p q) * x1 (ix2 (0 : Fin 1) q) := by
  unfold k0_pay1
  show (shapeCast S512x128 x0 _) (ix2 p q) * (broadcastTo S512x128 (shapeCast S1x128 x1 _) _) (ix2 p q) = _
  rw [shapeCast_self, shapeCast_self, broadcastTo_1b_ab_apply]

theorem pay2_apply (x0 : Vec Ideal S512x128 .f32) (x1 : Vec Ideal S1x128 .f32) (p : Fin 512) (q : Fin 128) :
    k0_pay2 x0 x1 (ix2 p q) = x0 (ix2 p q) * x1 (ix2 (0 : Fin 1) q) := pay1_apply x0 x1 p q

theorem chan_div_mod (q : Fin 128) (h : 16 * (q.val / 16) + q.val % 16 < 128) :
    (⟨16 * (q.val / 16) + q.val % 16, h⟩ : Fin 128) = q := Fin.ext (Nat.div_add_mod q.val 16)

theorem pay3_apply (x0 : Vec Ideal S512x128 .f32) (x1 : Vec Ideal S1x128 .f32) (p : Fin 512) (q : Fin 128) :
    k0_pay3 x0 x1 (ix2 p q)
      = quantOf (x0 (ix2 p q) * x1 (ix2 (0 : Fin 1) q))
          (fun k => x0 (ix2 p (⟨16 * (q.val / 16) + k.val, by omega⟩ : Fin 128)) * x1 (ix2 (0 : Fin 1) (⟨16 * (q.val / 16) + k.val, by omega⟩ : Fin 128))) := by
  unfold k0_pay3
  simp only [truncf_apply, unruns_apply, mulf_apply, minimumf_apply, maximumf_apply, divf_apply, broadcast_apply,
    spread_apply, keep_apply, runMax_apply, runs_apply, roundeven, absf, pay1_apply, chan_div_mod]
  have hM := runMax_apply (absf (shapeCast S512x8x16 (k0_pay1 x0 x1) shapeCasts_S512x128_S512x8x16)) reduces_S512x8x16_S512x8
    (.inl rfl) rfl p (⟨q.val / 16, by omega⟩ : Fin 8)
  rw [hM]
  simp only [absf, runs_apply, pay1_apply]
  rfl

end Cert.KernelIdeal.Hand

end
-- ==== Proof.KI.Val0.lean ====
import proofs.«158585_j49787260895356_1_alg».proof.Proof.KI.Reg0
import proofs.«158585_j49787260895356_1_alg».proof.Proof.KI.Val0Pay
import proofs.«158585_j49787260895356_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

section Value0
variable (V : (c : Dev nD) → (b : Ref sig .tc) → Buf (Elt Ideal) ((c : Thread nD τ).loc b))

def xMat (c : Dev nD) : Fin 8192 → Fin 4096 → EReal := fun r i => (V c main_v0 : S8192x4096.Idx → EReal) (ix2 r i)
def sRow (c : Dev nD) : Fin 4096 → EReal := fun i => (V c main_v1 : S1x4096.Idx → EReal) (ix2 (0 : Fin 1) i)

def smoothArr (c : Dev nD) : S8192x4096.Idx → EReal :=
  fun j => Cert.Spec.smooth (xMat V c) (sRow V c) ⟨(j 0).val, (j 0).isLt⟩ ⟨(j 1).val, (j 1).isLt⟩
def quantArr (c : Dev nD) : S8192x4096.Idx → EReal :=
  fun j => Cert.Spec.quant (Cert.Spec.smooth (xMat V c) (sRow V c) ⟨(j 0).val, (j 0).isLt⟩) ⟨(j 1).val, (j 1).isLt⟩

abbrev xblk (c : Dev nD) (t : Fin cfg0.N) : Vec Ideal S512x128 .f32 := iblk0 V c 0 t
abbrev sblk (c : Dev nD) (t : Fin cfg0.N) : Vec Ideal S1x128 .f32 := iblk0 V c 1 t

theorem hz0 : (![0, 0] : Fin 2 → Nat) = fun _ => 0 := funext fun a => by fin_cases a <;> rfl

theorem idx_facts0 : ∀ t : Fin cfg0.N,
    win0_0.index t (0 : Fin 2) = t.val / 32 ∧ win0_0.index t (1 : Fin 2) = t.val % 32
    ∧ win0_1.index t (0 : Fin 2) = 0 ∧ win0_1.index t (1 : Fin 2) = t.val % 32
    ∧ win0_2.index t (0 : Fin 2) = t.val / 32 ∧ win0_2.index t (1 : Fin 2) = t.val % 32
    ∧ win0_3.index t (0 : Fin 2) = t.val / 32 ∧ win0_3.index t (1 : Fin 2) = t.val % 32 :=
  (by decide +kernel : ∀ t : Fin grid0.N, _)

theorem xblk_apply (c : Dev nD) (t : Fin cfg0.N) (p : Fin 512) (q : Fin 128) (r : Fin 8192) (i : Fin 4096)
    (hr : r.val = 512 * (t.val / 32) + p.val) (hi : i.val = 128 * (t.val % 32) + q.val) :
    xblk V c t (ix2 p q) = xMat V c r i := by
  obtain ⟨e0, e1, -⟩ := idx_facts0 t
  show (V c main_v0 : S8192x4096.Idx → EReal) (((cfg0.win 0).blk t).view.emb (ix2 p q)) = (V c main_v0 : S8192x4096.Idx → EReal) (ix2 r i)
  refine congrArg _ (funext fun a => Fin.ext ?_)
  match a with
  | ⟨0, _⟩ => show win0_0.index t (0 : Fin 2) * 512 + 1 * p.val = r.val; rw [e0, hr]; omega
  | ⟨1, _⟩ => show win0_0.index t (1 : Fin 2) * 128 + 1 * q.val = i.val; rw [e1, hi]; omega

theorem sblk_apply (c : Dev nD) (t : Fin cfg0.N) (q : Fin 128) (i : Fin 4096) (hi : i.val = 128 * (t.val % 32) + q.val) :
    sblk V c t (ix2 (0 : Fin 1) q) = sRow V c i := by
  obtain ⟨-, -, e0, e1, -⟩ := idx_facts0 t
  show (V c main_v1 : S1x4096.Idx → EReal) (((cfg0.win 1).blk t).view.emb (ix2 (0 : Fin 1) q)) = (V c main_v1 : S1x4096.Idx → EReal) (ix2 (0 : Fin 1) i)
  refine congrArg _ (funext fun a => Fin.ext ?_)
  match a with
  | ⟨0, _⟩ => show win0_1.index t (0 : Fin 2) * 1 + 1 * 0 = 0; rw [e0]
  | ⟨1, _⟩ => show win0_1.index t (1 : Fin 2) * 128 + 1 * q.val = i.val; rw [e1, hi]; omega

theorem blk_smooth (c : Dev nD) (t : Fin cfg0.N) (p : Fin 512) (q : Fin 128) (r : Fin 8192) (i : Fin 4096)
    (hr : r.val = 512 * (t.val / 32) + p.val) (hi : i.val = 128 * (t.val % 32) + q.val) :
    xblk V c t (ix2 p q) * sblk V c t (ix2 (0 : Fin 1) q) = Cert.Spec.smooth (xMat V c) (sRow V c) r i := by
  rw [xblk_apply V c t p q r i hr hi, sblk_apply V c t q i hi]
  rfl

theorem emb0_2 (t : Fin cfg0.N) (p : Fin 512) (q : Fin 128) :
    ((((cfg0.win 2).blk t).view.emb (ix2 p q)) 0).val = 512 * (t.val / 32) + p.val
    ∧ ((((cfg0.win 2).blk t).view.emb (ix2 p q)) 1).val = 128 * (t.val % 32) + q.val := by
  obtain ⟨-, -, -, -, e0, e1, -⟩ := idx_facts0 t
  exact ⟨by show win0_2.index t (0 : Fin 2) * 512 + 1 * p.val = _; omega, by show win0_2.index t (1 : Fin 2) * 128 + 1 * q.val = _; omega⟩
theorem emb0_3 (t : Fin cfg0.N) (p : Fin 512) (q : Fin 128) :
    ((((cfg0.win 3).blk t).view.emb (ix2 p q)) 0).val = 512 * (t.val / 32) + p.val
    ∧ ((((cfg0.win 3).blk t).view.emb (ix2 p q)) 1).val = 128 * (t.val % 32) + q.val := by
  obtain ⟨-, -, -, -, -, -, e0, e1⟩ := idx_facts0 t
  exact ⟨by show win0_3.index t (0 : Fin 2) * 512 + 1 * p.val = _; omega, by show win0_3.index t (1 : Fin 2) * 128 + 1 * q.val = _; omega⟩

theorem flushed0_2_eq (c : Dev nD) (t : Fin cfg0.N) :
    (dat0 (F := Ideal) V c).flushed 2 t = ((cfg0.win 2).blk t).view.read (Elt Ideal) (smoothArr V c) := by
  show (cfg0.win 2).cut (grid0.coords t) ((dat0 (F := Ideal) V c).after 2 t) = _
  rw [after0_2]
  unfold out0_2
  rw [View.canon_unit_zero hz0]
  simp only [View.ld_unit_zero (S := S512x128) hz0, View.ld_unit_zero (S := S1x128) hz0]
  funext j
  obtain ⟨p, q, rfl⟩ : ∃ (p : Fin 512) (q : Fin 128), j = ix2 p q := ⟨j 0, j 1, eq_ix2 j⟩
  exact (pay2_apply (xblk V c t) (sblk V c t) p q).trans (blk_smooth V c t p q _ _ (emb0_2 t p q).1 (emb0_2 t p q).2)

/-- The run of 16 that holds channel q of the block is the run that holds channel 128 (t % 32) + q of the array. -/
theorem flushed0_3_eq (c : Dev nD) (t : Fin cfg0.N) :
    (dat0 (F := Ideal) V c).flushed 3 t = ((cfg0.win 3).blk t).view.read (Elt Ideal) (quantArr V c) := by
  show (cfg0.win 3).cut (grid0.coords t) ((dat0 (F := Ideal) V c).after 3 t) = _
  rw [after0_3]
  unfold out0_3
  rw [View.canon_unit_zero hz0]
  simp only [View.ld_unit_zero (S := S512x128) hz0, View.ld_unit_zero (S := S1x128) hz0]
  funext j
  obtain ⟨p, q, rfl⟩ : ∃ (p : Fin 512) (q : Fin 128), j = ix2 p q := ⟨j 0, j 1, eq_ix2 j⟩
  obtain ⟨h1, h2⟩ := emb0_3 t p q
  refine (pay3_apply (xblk V c t) (sblk V c t) p q).trans ?_
  show _ = quantArr V c (((cfg0.win 3).blk t).view.emb (ix2 p q))
  unfold quantArr
  rw [quant_eq_quantOf]
  refine congrArg₂ quantOf (blk_smooth V c t p q _ _ h1 h2) (funext fun k => blk_smooth V c t p _ _ _ h1 ?_)
  show 16 * ((((cfg0.win 3).blk t).view.emb (ix2 p q) 1).val / 16) + k.val = 128 * (t.val % 32) + (16 * (q.val / 16) + k.val)
  have hq := q.isLt
  omega

/-- The point whose blocks hold entry (r, i): 32 (r / 512) + i / 128. -/
def ptOf (i : S8192x4096.Idx) : Fin cfg0.N :=
  ⟨(i 0).val / 512 * 32 + (i 1).val / 128, by
    have h0 := idx2_lt0 i
    have h1 := idx2_lt1 i
    show _ < grid0.N
    rw [N_0]; omega⟩

/-- Entry (r, i) lies within block (r / 512, i / 128). -/
theorem in_blk0 (i : S8192x4096.Idx) (x0 x1 : ℕ) (e0 : x0 = (ptOf i).val / 32) (e1 : x1 = (ptOf i).val % 32) :
    (x0 * 512 ≤ (i 0).val ∧ (i 0).val < x0 * 512 + 512) ∧ (x1 * 128 ≤ (i 1).val ∧ (i 1).val < x1 * 128 + 128) := by
  have h0 := idx2_lt0 i
  have h1 := idx2_lt1 i
  have ht : (ptOf i).val = (i 0).val / 512 * 32 + (i 1).val / 128 := rfl
  omega

theorem cover0_2 (i : S8192x4096.Idx) : ∃ t : Fin cfg0.N, (cfg0.win 2).flush t = true ∧ i ∈ ((cfg0.win 2).blk t).view.set := by
  obtain ⟨-, -, -, -, e0, e1, -⟩ := idx_facts0 (ptOf i)
  refine ⟨ptOf i, flush0_2 _, ?_⟩
  show i ∈ ((View.whole main_v3_0).slice (win0_2.rect (ptOf i))).set
  rw [View.set_slice_whole, Rect.mem_set_unit]
  intro a
  match a with
  | ⟨0, _⟩ => exact (in_blk0 i _ _ e0 e1).1
  | ⟨1, _⟩ => exact (in_blk0 i _ _ e0 e1).2
theorem cover0_3 (i : S8192x4096.Idx) : ∃ t : Fin cfg0.N, (cfg0.win 3).flush t = true ∧ i ∈ ((cfg0.win 3).blk t).view.set := by
  obtain ⟨-, -, -, -, -, -, e0, e1⟩ := idx_facts0 (ptOf i)
  refine ⟨ptOf i, flush0_3 _, ?_⟩
  show i ∈ ((View.whole main_v3_1).slice (win0_3.rect (ptOf i))).set
  rw [View.set_slice_whole, Rect.mem_set_unit]
  intro a
  match a with
  | ⟨0, _⟩ => exact (in_blk0 i _ _ e0 e1).1
  | ⟨1, _⟩ => exact (in_blk0 i _ _ e0 e1).2

theorem arr0_2 (c : Dev nD) : (dat0 (F := Ideal) V c).arrAt 2 cfg0.N = smoothArr V c :=
  (dat0 (F := Ideal) V c).arrAt_eq_of_cover 2 (smoothArr V c) (fun t _ => flushed0_2_eq V c t) cover0_2

theorem arr0_3 (c : Dev nD) : (dat0 (F := Ideal) V c).arrAt 3 cfg0.N = quantArr V c :=
  (dat0 (F := Ideal) V c).arrAt_eq_of_cover 3 (quantArr V c) (fun t _ => flushed0_3_eq V c t) cover0_3

end Value0

end Cert.KernelIdeal.Hand

end
-- ==== Proof.KI.Val1Pieces.lean ====
import proofs.«158585_j49787260895356_1_alg».proof.Proof.KI.Reg1Defs
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

theorem hz2 : (![0, 0] : Fin 2 → Nat) = fun _ => 0 := funext fun a => by fin_cases a <;> rfl

theorem ld00 {Val : EltTy → Type} {e : EltTy} {n0 n1 : Nat} (inb) (X : (⟨2, ![n0, n1]⟩ : Shape).Idx → Val e) :
    View.ld X (Rect.unit ![0, 0] ![n0, n1] inb) = X := View.ld_unit_zero hz2 inb X
theorem readCov00 {Val : EltTy → Type} [∀ e, Nonempty (Val e)] {sig : RefSig} {κ : Kind} {sp : Space} {e : EltTy} {n0 n1 : Nat}
    (v : View sig κ sp ⟨2, ![n0, n1]⟩ e) (inb) (w : (⟨2, ![n0, n1]⟩ : Shape).Idx → Val e) :
    v.readCov [⟨Rect.unit ![0, 0] ![n0, n1] inb, w⟩] (Rect.unit ![0, 0] ![n0, n1] inb).toLoadRect = w := View.readCov_unit_zero v hz2 inb w

variable (V : (c : Dev nD) → (b : Ref sig .tc) → Buf (Elt F) ((c : Thread nD τ).loc b)) (c : Dev nD) (t : Fin cfg1.N)
  (P : Vec F S512x512 .f32 × Vec F S512x32 .f32)

/-- What a point leaves, by its case, as the body's arithmetic over the point's blocks and what the point before left. -/
theorem ptA_eq (h0 : t.val % 4 = 0) : ptA V c t h0 = (k1_pay4 (iblk1 V c 0 t) (iblk1 V c 1 t) (iblk1 V c 3 t) (iblk1 V c 4 t) k1_pay2, k1_pay5 (iblk1 V c 2 t) (iblk1 V c 5 t) k1_pay3) := by
  unfold ptA out1_A_8 sout1_A_0 kernelRun1_A
  rw [View.read_writes_junk_eq_canon, View.read_writes_junk_eq_canon]
  dsimp only
  sl_unfold_words
  rw [View.canon_cons_unit_zero hz2, View.canon_cons_unit_zero hz2]
  simp only [View.readAt_eq_ld, Memref.IsWhole.read_unread, ld00, readCov00]

theorem ptB_eq (h0 : ¬t.val % 4 = 0) (h1 : ¬t.val % 4 = 3) : ptB V c t h0 h1 P = (k1_pay4 (iblk1 V c 0 t) (iblk1 V c 1 t) (iblk1 V c 3 t) (iblk1 V c 4 t) P.1, k1_pay5 (iblk1 V c 2 t) (iblk1 V c 5 t) P.2) := by
  unfold ptB out1_B_8 sout1_B_0 kernelRun1_B
  rw [View.read_writes_junk_eq_canon, View.read_writes_junk_eq_canon]
  dsimp only
  sl_unfold_words
  rw [View.canon_cons_unit_zero hz2, View.canon_cons_unit_zero hz2]
  simp only [View.readAt_eq_ld, Memref.IsWhole.read_unread, ld00, readCov00]
  erw [Memref.IsWhole.read_unread]

theorem ptC_eq (h1 : t.val % 4 = 3) : (ptC V c t h1 P).1 = k1_pay1 (iblk1 V c 6 t) (k1_pay5 (iblk1 V c 2 t) (iblk1 V c 5 t) P.2) (k1_pay4 (iblk1 V c 0 t) (iblk1 V c 1 t) (iblk1 V c 3 t) (iblk1 V c 4 t) P.1) (iblk1 V c 7 t) := by
  unfold ptC out1_C_8 kernelRun1_C
  rw [View.read_writes_junk_eq_canon]
  dsimp only
  sl_unfold_words
  rw [View.canon_cons_unit_zero hz2]
  simp only [View.readAt_eq_ld, Memref.IsWhole.read_unread, ld00, readCov00]
  erw [Memref.IsWhole.read_unread]

end Cert.KernelIdeal.Hand

end
-- ==== Proof.KI.Val1Pay.lean ====
import proofs.«158585_j49787260895356_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx Idealize.SL.Sem

/-- Two matrix indices with the same coordinates are equal. -/
theorem ix2_ext {n0 n1 : Nat} {u : (⟨2, ![n0, n1]⟩ : Shape).Idx} {a : Fin n0} {b : Fin n1} (h0 : (u 0).val = a.val) (h1 : (u 1).val = b.val) : u = ix2 a b :=
  funext fun k => Fin.ext (by match k with | ⟨0, _⟩ => exact h0 | ⟨1, _⟩ => exact h1)

/-- A product contracting the second axis of both operands, into the zero block: entry (p, o) is row p of the left operand against row o of the right one. -/
theorem mm_apply {M N K : Nat} (d : DotDims ⟨2, ![M, K]⟩ ⟨2, ![N, K]⟩ ⟨2, ![M, N]⟩) (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (i 1).val) (hr1 : ∀ i q, (d.rhsIdx i q 1).val = (q ⟨0, by omega⟩).val)
    {φ₁ φ₂ : FTy} (l : FVec Ideal ⟨2, ![M, K]⟩ φ₁) (r : FVec Ideal ⟨2, ![N, K]⟩ φ₂) (p : Fin M) (o : Fin N) :
    matmul d none l r (constant (F := Ideal) ⟨2, ![M, N]⟩ .f32 0x00000000#32) (ix2 p o) = ∑ j : Fin K, l (ix2 p j) * r (ix2 o j) := by
  simp only [matmul]
  rw [Ideal.matmul_constant_zero_apply, ← Equiv.sum_comp (contrEquiv1 d K hr hs).symm]
  refine Finset.sum_congr rfl fun k _ => ?_
  have hk := contrEquiv1_symm_val d K hr hs k
  rw [ix2_ext (hl0 _ _) ((hl1 _ _).trans hk), ix2_ext (hr0 _ _) ((hr1 _ _).trans hk)]
  rfl

theorem mm_main_apply {φ₁ φ₂ : FTy} (l : FVec Ideal S512x1024 φ₁) (r : FVec Ideal S512x1024 φ₂) (p : Fin 512) (o : Fin 512) :
    matmul dot_S512x1024_S512x1024_S512x512_1_1_0_0_n_n none l r (constant (F := Ideal) S512x512 .f32 0x00000000#32) (ix2 p o)
      = ∑ j : Fin 1024, l (ix2 p j) * r (ix2 o j) :=
  mm_apply dot_S512x1024_S512x1024_S512x512_1_1_0_0_n_n rfl rfl (fun _ _ => rfl) (fun _ _ => rfl) (fun _ _ => rfl) (fun _ _ => rfl) l r p o

theorem mm_lora_apply {φ₁ φ₂ : FTy} (l : FVec Ideal S512x1024 φ₁) (r : FVec Ideal S32x1024 φ₂) (p : Fin 512) (q : Fin 32) :
    matmul dot_S512x1024_S32x1024_S512x32_1_1_0_0_n_n none l r (constant (F := Ideal) S512x32 .f32 0x00000000#32) (ix2 p q)
      = ∑ j : Fin 1024, l (ix2 p j) * r (ix2 q j) :=
  mm_apply dot_S512x1024_S32x1024_S512x32_1_1_0_0_n_n rfl rfl (fun _ _ => rfl) (fun _ _ => rfl) (fun _ _ => rfl) (fun _ _ => rfl) l r p q

theorem mm_fin_apply {φ₁ φ₂ : FTy} (l : FVec Ideal S512x32 φ₁) (r : FVec Ideal S512x32 φ₂) (p : Fin 512) (o : Fin 512) :
    matmul dot_S512x32_S512x32_S512x512_1_1_0_0_n_n none l r (constant (F := Ideal) S512x512 .f32 0x00000000#32) (ix2 p o)
      = ∑ q : Fin 32, l (ix2 p q) * r (ix2 o q) :=
  mm_apply dot_S512x32_S512x32_S512x512_1_1_0_0_n_n rfl rfl (fun _ _ => rfl) (fun _ _ => rfl) (fun _ _ => rfl) (fun _ _ => rfl) l r p o

theorem k1_pay2_apply (p o : Fin 512) : (k1_pay2 (F := Ideal)) (ix2 p o) = 0 := by
  unfold k1_pay2
  exact Ideal.ofBits_zero_f32

theorem k1_pay3_apply (p : Fin 512) (q : Fin 32) : (k1_pay3 (F := Ideal)) (ix2 p q) = 0 := by
  unfold k1_pay3
  exact (congrFun (shapeCast_self _ _) _).trans Ideal.ofBits_zero_f32

theorem k1_pay4_apply (v3 : Vec Ideal S512x1024 .f32) (v6 : Vec Ideal S512x1024 .bf16) (v10 v12 : Vec Ideal S512x1024 .f32)
    (v18 : Vec Ideal S512x512 .f32) (p o : Fin 512) :
    k1_pay4 v3 v6 v10 v12 v18 (ix2 p o)
      = v18 (ix2 p o) + ((∑ j : Fin 1024, v6 (ix2 p j) * v10 (ix2 o j)) + (∑ j : Fin 1024, v3 (ix2 p j) * v12 (ix2 o j))) := by
  simp only [k1_pay4, shapeCast_self, addf_apply, truncf_apply, mm_main_apply]

theorem k1_pay5_apply (v8 : Vec Ideal S512x1024 .bf16) (v14 : Vec Ideal S32x1024 .f32) (v24 : Vec Ideal S512x32 .f32)
    (p : Fin 512) (q : Fin 32) :
    k1_pay5 v8 v14 v24 (ix2 p q) = v24 (ix2 p q) + ∑ j : Fin 1024, v8 (ix2 p j) * v14 (ix2 q j) := by
  simp only [k1_pay5, shapeCast_self, addf_apply, truncf_apply, mm_lora_apply]

theorem k1_pay1_apply (v32 v34 : Vec Ideal S512x32 .f32) (v37 : Vec Ideal S512x512 .f32) (v39 : Vec Ideal S1x512 .f32) (p o : Fin 512) :
    k1_pay1 v32 v34 v37 v39 (ix2 p o)
      = v37 (ix2 p o) + ((∑ q : Fin 32, v34 (ix2 p q) * v32 (ix2 o q)) + v39 (ix2 0 o)) := by
  simp only [k1_pay1, shapeCast_self, addf_apply, truncf_apply, mm_fin_apply, broadcastTo_1b_ab_apply]

end Cert.KernelIdeal.Hand

end
-- ==== Proof.KI.Val1Blocks.lean ====
import proofs.«158585_j49787260895356_1_alg».proof.Proof.Gen.KernelIdeal.Launch
import proofs.«158585_j49787260895356_1_alg».proof.Proof.Gen.KernelIdeal.Points
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

theorem idx1 : ∀ t : Fin cfg1.N,
    win1_0.index t (0 : Fin 2) = t.val / 32 ∧ win1_0.index t (1 : Fin 2) = t.val % 4
    ∧ win1_1.index t (0 : Fin 2) = t.val / 32 ∧ win1_1.index t (1 : Fin 2) = t.val % 4
    ∧ win1_2.index t (0 : Fin 2) = t.val / 32 ∧ win1_2.index t (1 : Fin 2) = t.val % 4
    ∧ win1_3.index t (0 : Fin 2) = t.val / 4 % 8 ∧ win1_3.index t (1 : Fin 2) = t.val % 4
    ∧ win1_4.index t (0 : Fin 2) = t.val / 4 % 8 ∧ win1_4.index t (1 : Fin 2) = t.val % 4
    ∧ win1_5.index t (0 : Fin 2) = 0 ∧ win1_5.index t (1 : Fin 2) = t.val % 4
    ∧ win1_6.index t (0 : Fin 2) = t.val / 4 % 8 ∧ win1_6.index t (1 : Fin 2) = 0
    ∧ win1_7.index t (0 : Fin 2) = 0 ∧ win1_7.index t (1 : Fin 2) = t.val / 4 % 8
    ∧ win1_8.index t (0 : Fin 2) = t.val / 32 ∧ win1_8.index t (1 : Fin 2) = t.val / 4 % 8 :=
  (by decide +kernel : ∀ t : Fin grid1.N, _)

/-- Two matrix indices with the same coordinates are equal. -/
theorem idx2_ext {n0 n1 : Nat} {u v : (⟨2, ![n0, n1]⟩ : Shape).Idx} (h0 : (u 0).val = (v 0).val) (h1 : (u 1).val = (v 1).val) : u = v :=
  funext fun a => Fin.ext (by match a with | ⟨0, _⟩ => exact h0 | ⟨1, _⟩ => exact h1)

section Blocks
variable (V : (c : Dev nD) → (b : Ref sig .tc) → Buf (Elt F) ((c : Thread nD τ).loc b)) (c : Dev nD) (t : Fin cfg1.N)

abbrev xArr : Vec F S8192x4096 .f32 := V c main_v0
abbrev xqArr : Vec F S8192x4096 .bf16 := V c main_v3_1
abbrev xsArr : Vec F S8192x4096 .bf16 := V c main_v3_0
abbrev wqArr : Vec F S4096x4096 .f32 := V c main_arg2
abbrev wsArr : Vec F S4096x4096 .f32 := V c main_arg5
abbrev laArr : Vec F S32x4096 .f32 := V c main_arg3
abbrev lbArr : Vec F S4096x32 .f32 := V c main_arg4
abbrev biasArr : Vec F S1x4096 .f32 := V c main_v2

abbrev xBlk : Vec F S512x1024 .f32 := ((cfg1.win 0).blk t).view.read (Elt F) (V c (Pipeline.arrRef spec1 0))
abbrev xqBlk : Vec F S512x1024 .bf16 := ((cfg1.win 1).blk t).view.read (Elt F) (V c (Pipeline.arrRef spec1 1))
abbrev xsBlk : Vec F S512x1024 .bf16 := ((cfg1.win 2).blk t).view.read (Elt F) (V c (Pipeline.arrRef spec1 2))
abbrev wqBlk : Vec F S512x1024 .f32 := ((cfg1.win 3).blk t).view.read (Elt F) (V c (Pipeline.arrRef spec1 3))
abbrev wsBlk : Vec F S512x1024 .f32 := ((cfg1.win 4).blk t).view.read (Elt F) (V c (Pipeline.arrRef spec1 4))
abbrev laBlk : Vec F S32x1024 .f32 := ((cfg1.win 5).blk t).view.read (Elt F) (V c (Pipeline.arrRef spec1 5))
abbrev lbBlk : Vec F S512x32 .f32 := ((cfg1.win 6).blk t).view.read (Elt F) (V c (Pipeline.arrRef spec1 6))
abbrev biasBlk : Vec F S1x512 .f32 := ((cfg1.win 7).blk t).view.read (Elt F) (V c (Pipeline.arrRef spec1 7))

section
variable (p : Fin 512) (j : Fin 1024)

section
variable (i : S8192x4096.Idx) (h0 : (i 0).val = 512 * (t.val / 32) + p.val) (h1 : (i 1).val = 1024 * (t.val % 4) + j.val)
include h0 h1

theorem xBlk_apply : xBlk V c t (ix2 p j) = xArr V c i := by
  obtain ⟨e0, e1, -⟩ := idx1 t
  exact congrArg (V c main_v0) (idx2_ext (by show win1_0.index t (0 : Fin 2) * 512 + 1 * p.val = _; omega) (by show win1_0.index t (1 : Fin 2) * 1024 + 1 * j.val = _; omega))

theorem xqBlk_apply : xqBlk V c t (ix2 p j) = xqArr V c i := by
  obtain ⟨-, -, e0, e1, -⟩ := idx1 t
  exact congrArg (V c main_v3_1) (idx2_ext (by show win1_1.index t (0 : Fin 2) * 512 + 1 * p.val = _; omega) (by show win1_1.index t (1 : Fin 2) * 1024 + 1 * j.val = _; omega))

theorem xsBlk_apply : xsBlk V c t (ix2 p j) = xsArr V c i := by
  obtain ⟨-, -, -, -, e0, e1, -⟩ := idx1 t
  exact congrArg (V c main_v3_0) (idx2_ext (by show win1_2.index t (0 : Fin 2) * 512 + 1 * p.val = _; omega) (by show win1_2.index t (1 : Fin 2) * 1024 + 1 * j.val = _; omega))

end

variable (i : S4096x4096.Idx) (h0 : (i 0).val = 512 * (t.val / 4 % 8) + p.val) (h1 : (i 1).val = 1024 * (t.val % 4) + j.val)
include h0 h1

theorem wqBlk_apply : wqBlk V c t (ix2 p j) = wqArr V c i := by
  obtain ⟨-, -, -, -, -, -, e0, e1, -⟩ := idx1 t
  exact congrArg (V c main_arg2) (idx2_ext (by show win1_3.index t (0 : Fin 2) * 512 + 1 * p.val = _; omega) (by show win1_3.index t (1 : Fin 2) * 1024 + 1 * j.val = _; omega))

theorem wsBlk_apply : wsBlk V c t (ix2 p j) = wsArr V c i := by
  obtain ⟨-, -, -, -, -, -, -, -, e0, e1, -⟩ := idx1 t
  exact congrArg (V c main_arg5) (idx2_ext (by show win1_4.index t (0 : Fin 2) * 512 + 1 * p.val = _; omega) (by show win1_4.index t (1 : Fin 2) * 1024 + 1 * j.val = _; omega))

end

theorem laBlk_apply (p : Fin 32) (j : Fin 1024) (i : S32x4096.Idx)
    (h0 : (i 0).val = 32 * (0) + p.val) (h1 : (i 1).val = 1024 * (t.val % 4) + j.val) :
    laBlk V c t (ix2 p j) = laArr V c i := by
  obtain ⟨-, -, -, -, -, -, -, -, -, -, e0, e1, -⟩ := idx1 t
  exact congrArg (V c main_arg3) (idx2_ext (by show win1_5.index t (0 : Fin 2) * 32 + 1 * p.val = _; omega) (by show win1_5.index t (1 : Fin 2) * 1024 + 1 * j.val = _; omega))

theorem lbBlk_apply (p : Fin 512) (j : Fin 32) (i : S4096x32.Idx)
    (h0 : (i 0).val = 512 * (t.val / 4 % 8) + p.val) (h1 : (i 1).val = 32 * (0) + j.val) :
    lbBlk V c t (ix2 p j) = lbArr V c i := by
  obtain ⟨-, -, -, -, -, -, -, -, -, -, -, -, e0, e1, -⟩ := idx1 t
  exact congrArg (V c main_arg4) (idx2_ext (by show win1_6.index t (0 : Fin 2) * 512 + 1 * p.val = _; omega) (by show win1_6.index t (1 : Fin 2) * 32 + 1 * j.val = _; omega))

theorem biasBlk_apply (p : Fin 1) (j : Fin 512) (i : S1x4096.Idx)
    (h0 : (i 0).val = 1 * (0) + p.val) (h1 : (i 1).val = 512 * (t.val / 4 % 8) + j.val) :
    biasBlk V c t (ix2 p j) = biasArr V c i := by
  obtain ⟨-, -, -, -, -, -, -, -, -, -, -, -, -, -, e0, e1, -⟩ := idx1 t
  exact congrArg (V c main_v2) (idx2_ext (by show win1_7.index t (0 : Fin 2) * 1 + 1 * p.val = _; omega) (by show win1_7.index t (1 : Fin 2) * 512 + 1 * j.val = _; omega))

end Blocks

/-- Entry (r, o) of the result lies in the block written back at the last point of the run of row block r / 512 and column block o / 512. -/
theorem cover1_8 (i : S8192x4096.Idx) : ∃ t : Fin cfg1.N, (cfg1.win 8).flush t = true ∧ i ∈ ((cfg1.win 8).blk t).view.set := by
  have hr := idx2_lt0 i
  have ho := idx2_lt1 i
  have hN : cfg1.N = 512 := N_1
  obtain ⟨t, ht⟩ : ∃ t : Fin cfg1.N, t.val = 32 * ((i 0).val / 512) + 4 * ((i 1).val / 512) + 3 := ⟨⟨_, by rw [hN]; omega⟩, rfl⟩
  obtain ⟨-, -, -, -, -, -, -, -, -, -, -, -, -, -, -, -, e0, e1⟩ := idx1 t
  refine ⟨t, (flush1_8 t).mpr (by omega), ?_⟩
  show i ∈ ((View.whole main_v4).slice (win1_8.rect t)).set
  rw [View.set_slice_whole, Rect.mem_set_unit]
  intro a
  match a with
  | ⟨0, _⟩ => show win1_8.index t (0 : Fin 2) * 512 ≤ (i 0).val ∧ (i 0).val < win1_8.index t (0 : Fin 2) * 512 + 512; omega
  | ⟨1, _⟩ => show win1_8.index t (1 : Fin 2) * 512 ≤ (i 1).val ∧ (i 1).val < win1_8.index t (1 : Fin 2) * 512 + 512; omega

theorem emb1_8 (t : Fin cfg1.N) (p o : Fin 512) :
    ((((cfg1.win 8).blk t).view.emb (ix2 p o)) 0).val = 512 * (t.val / 32) + p.val
    ∧ ((((cfg1.win 8).blk t).view.emb (ix2 p o)) 1).val = 512 * (t.val / 4 % 8) + o.val := by
  obtain ⟨-, -, -, -, -, -, -, -, -, -, -, -, -, -, -, -, e0, e1⟩ := idx1 t
  constructor
  · show win1_8.index t (0 : Fin 2) * 512 + 1 * p.val = _; omega
  · show win1_8.index t (1 : Fin 2) * 512 + 1 * o.val = _; omega

end Cert.KernelIdeal.Hand

end
-- ==== Proof.KI.Val1Fold.lean ====
import proofs.«158585_j49787260895356_1_alg».proof.Proof.KI.Val1Pieces
import proofs.«158585_j49787260895356_1_alg».proof.Proof.KI.Val1Pay
import proofs.«158585_j49787260895356_1_alg».proof.Proof.KI.Val1Blocks

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

section Fold
variable (V : (c : Dev nD) → (b : Ref sig .tc) → Buf (Elt Ideal) ((c : Thread nD τ).loc b)) (c : Dev nD)

def mainAdd (t : Fin cfg1.N) (p o : Fin 512) : EReal :=
  (∑ j : Fin 1024, xqBlk V c t (ix2 p j) * wqBlk V c t (ix2 o j)) + (∑ j : Fin 1024, xBlk V c t (ix2 p j) * wsBlk V c t (ix2 o j))

def loraAdd (t : Fin cfg1.N) (p : Fin 512) (q : Fin 32) : EReal :=
  ∑ j : Fin 1024, xsBlk V c t (ix2 p j) * laBlk V c t (ix2 q j)

theorem outs_A (n : ℕ) (hn : n < cfg1.N) (h0 : n % 4 = 0) :
    (∀ p o : Fin 512, (outsAt1 V c n hn).1 (ix2 p o) = 0 + mainAdd V c ⟨n, hn⟩ p o)
    ∧ (∀ (p : Fin 512) (q : Fin 32), (outsAt1 V c n hn).2 (ix2 p q) = 0 + loraAdd V c ⟨n, hn⟩ p q) := by
  rw [show outsAt1 V c n hn = _ from outsAt1_A V c ⟨n, hn⟩ h0, ptA_eq]
  constructor
  · intro p o
    refine (k1_pay4_apply ..).trans ?_
    rw [k1_pay2_apply]
    rfl
  · intro p q
    refine (k1_pay5_apply ..).trans ?_
    rw [k1_pay3_apply]
    rfl

theorem outs_B (n : ℕ) (hn : n < cfg1.N) (h0 : ¬n % 4 = 0) (h1 : ¬n % 4 = 3) (m : ℕ) (hm : m < cfg1.N) (e : m = n - 1) :
    (∀ p o : Fin 512, (outsAt1 V c n hn).1 (ix2 p o) = (outsAt1 V c m hm).1 (ix2 p o) + mainAdd V c ⟨n, hn⟩ p o)
    ∧ (∀ (p : Fin 512) (q : Fin 32), (outsAt1 V c n hn).2 (ix2 p q) = (outsAt1 V c m hm).2 (ix2 p q) + loraAdd V c ⟨n, hn⟩ p q) := by
  subst e
  rw [show outsAt1 V c n hn = _ from outsAt1_B V c ⟨n, hn⟩ h0 h1, ptB_eq]
  exact ⟨fun p o => k1_pay4_apply .., fun p q => k1_pay5_apply ..⟩

theorem outs_C (n : ℕ) (hn : n < cfg1.N) (h1 : n % 4 = 3) (m : ℕ) (hm : m < cfg1.N) (e : m = n - 1) (p o : Fin 512) :
    (outsAt1 V c n hn).1 (ix2 p o)
      = ((outsAt1 V c m hm).1 (ix2 p o) + mainAdd V c ⟨n, hn⟩ p o)
        + ((∑ q : Fin 32, ((outsAt1 V c m hm).2 (ix2 p q) + loraAdd V c ⟨n, hn⟩ p q) * lbBlk V c ⟨n, hn⟩ (ix2 o q)) + biasBlk V c ⟨n, hn⟩ (ix2 0 o)) := by
  subst e
  rw [show outsAt1 V c n hn = _ from outsAt1_C V c ⟨n, hn⟩ h1, ptC_eq]
  refine (k1_pay1_apply ..).trans ?_
  exact congrArg₂ (· + ·) (k1_pay4_apply ..)
    (congrArg (· + biasBlk V c ⟨n, hn⟩ (ix2 0 o)) (Finset.sum_congr rfl fun q _ => congrArg (· * lbBlk V c ⟨n, hn⟩ (ix2 o q)) (k1_pay5_apply ..)))

/-- The output block at the last point of a run of four: the four points' addends from zero, then the low-rank product and the bias. -/
theorem out_at_flush (n : ℕ) (hn : n < cfg1.N) (h3 : n % 4 = 3) (h0 : n - 3 < cfg1.N) (h1 : n - 2 < cfg1.N) (h2 : n - 1 < cfg1.N)
    (p o : Fin 512) :
    (outsAt1 V c n hn).1 (ix2 p o)
      = ((((0 + mainAdd V c ⟨n - 3, h0⟩ p o) + mainAdd V c ⟨n - 2, h1⟩ p o) + mainAdd V c ⟨n - 1, h2⟩ p o) + mainAdd V c ⟨n, hn⟩ p o)
        + ((∑ q : Fin 32, ((((0 + loraAdd V c ⟨n - 3, h0⟩ p q) + loraAdd V c ⟨n - 2, h1⟩ p q) + loraAdd V c ⟨n - 1, h2⟩ p q) + loraAdd V c ⟨n, hn⟩ p q)
              * lbBlk V c ⟨n, hn⟩ (ix2 o q)) + biasBlk V c ⟨n, hn⟩ (ix2 0 o)) := by
  obtain ⟨a1, a2⟩ := outs_A V c (n - 3) h0 (by omega)
  obtain ⟨b1, b2⟩ := outs_B V c (n - 2) h1 (by omega) (by omega) (n - 3) h0 (by omega)
  obtain ⟨d1, d2⟩ := outs_B V c (n - 1) h2 (by omega) (by omega) (n - 2) h1 (by omega)
  rw [outs_C V c n hn h3 (n - 1) h2 rfl p o, d1 p o, b1 p o, a1 p o]
  refine congrArg (_ + ·) (congrArg (· + biasBlk V c ⟨n, hn⟩ (ix2 0 o)) (Finset.sum_congr rfl fun q _ => ?_))
  rw [d2 p q, b2 p q, a2 p q]

end Fold

end Cert.KernelIdeal.Hand

end
-- ==== Proof.LibSumSplit.lean ====
import Mathlib.Algebra.BigOperators.Fin
import Mathlib.Logic.Equiv.Fin.Basic

open scoped BigOperators

namespace Cert.SumSplit

theorem lt_of_run {a b N : ℕ} (h : a * b = N) (t : Fin a) (q : Fin b) : b * t.val + q.val < N := by
  have ht := t.isLt
  have hq := q.isLt
  calc b * t.val + q.val < b * t.val + b := by omega
    _ = b * (t.val + 1) := (Nat.mul_succ b t.val).symm
    _ ≤ b * a := Nat.mul_le_mul_left _ ht
    _ = N := by rw [Nat.mul_comm, h]

theorem sum_split {M : Type*} [AddCommMonoid M] (a b N : ℕ) (h : a * b = N) (f : Fin N → M) :
    ∑ n, f n = ∑ t : Fin a, ∑ q : Fin b, f ⟨b * t.val + q.val, lt_of_run h t q⟩ := by
  subst h
  rw [← Fintype.sum_prod_type']
  symm
  refine Fintype.sum_equiv finProdFinEquiv _ _ ?_
  rintro ⟨t, q⟩
  refine congrArg f (Fin.ext ?_)
  simp [finProdFinEquiv, Nat.add_comm]

end Cert.SumSplit
-- ==== Proof.KI.Algebra.lean ====
import proofs.«158585_j49787260895356_1_alg».proof.Proof.Spec
import proofs.«158585_j49787260895356_1_alg».proof.Proof.LibSumSplit
import Mathlib.Algebra.BigOperators.Fin
import Mathlib.Tactic.Abel

noncomputable section

namespace Cert.KernelIdeal.Hand

open scoped BigOperators

def chunk (k : Fin 4) (j : Fin 1024) : Fin 4096 := ⟨1024 * k.val + j.val, by omega⟩

theorem sum_chunks (f : Fin 4096 → EReal) :
    ∑ i, f i = (((∑ j, f (chunk 0 j)) + (∑ j, f (chunk 1 j))) + (∑ j, f (chunk 2 j))) + (∑ j, f (chunk 3 j)) := by
  rw [Cert.SumSplit.sum_split 4 1024 4096 rfl f, Fin.sum_univ_four]
  rfl

section Layer
variable (xq xs x : Fin 8192 → Fin 4096 → EReal) (wq : Fin 4096 → Fin 4096 → EReal) (la : Fin 32 → Fin 4096 → EReal)
  (lb : Fin 4096 → Fin 32 → EReal) (ws : Fin 4096 → Fin 4096 → EReal) (bias : Fin 4096 → EReal)

def mainTerm (r : Fin 8192) (o : Fin 4096) (k : Fin 4) : EReal :=
  (∑ j : Fin 1024, xq r (chunk k j) * wq o (chunk k j)) + (∑ j : Fin 1024, x r (chunk k j) * ws o (chunk k j))

def loraTerm (r : Fin 8192) (k : Fin 4) (q : Fin 32) : EReal :=
  ∑ j : Fin 1024, xs r (chunk k j) * la q (chunk k j)

theorem layerOf_eq_runs (r : Fin 8192) (o : Fin 4096) :
    Cert.Spec.layerOf xq xs x wq la lb ws bias r o
      = ((((0 + mainTerm xq x wq ws r o 0) + mainTerm xq x wq ws r o 1) + mainTerm xq x wq ws r o 2) + mainTerm xq x wq ws r o 3)
        + ((∑ q : Fin 32, ((((0 + loraTerm xs la r 0 q) + loraTerm xs la r 1 q) + loraTerm xs la r 2 q) + loraTerm xs la r 3 q) * lb o q)
            + bias o) := by
  unfold Cert.Spec.layerOf mainTerm loraTerm
  rw [sum_chunks (fun i => xq r i * wq o i), sum_chunks (fun i => x r i * ws o i)]
  have hl : ∀ q : Fin 32, (∑ i, xs r i * la q i)
      = (((0 + ∑ j, xs r (chunk 0 j) * la q (chunk 0 j)) + ∑ j, xs r (chunk 1 j) * la q (chunk 1 j))
          + ∑ j, xs r (chunk 2 j) * la q (chunk 2 j)) + ∑ j, xs r (chunk 3 j) * la q (chunk 3 j) := by
    intro q; rw [sum_chunks (fun i => xs r i * la q i), zero_add]
  simp only [hl]
  abel

end Layer

end Cert.KernelIdeal.Hand

end
-- ==== Proof.KI.Val1.lean ====
import proofs.«158585_j49787260895356_1_alg».proof.Proof.KI.Val1Fold
import proofs.«158585_j49787260895356_1_alg».proof.Proof.KI.Algebra

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

section Final
variable (V : (c : Dev nD) → (b : Ref sig .tc) → Buf (Elt Ideal) ((c : Thread nD τ).loc b)) (c : Dev nD)

def result1 : Vec Ideal S8192x4096 .f32 := fun j =>
  Cert.Spec.layerOf (fun r i => xqArr V c (ix2 r i)) (fun r i => xsArr V c (ix2 r i)) (fun r i => xArr V c (ix2 r i)) (fun o i => wqArr V c (ix2 o i)) (fun q i => laArr V c (ix2 q i)) (fun o q => lbArr V c (ix2 o q)) (fun o i => wsArr V c (ix2 o i)) (fun o => biasArr V c (ix2 0 o))
    ⟨(j 0).val, (j 0).isLt⟩ ⟨(j 1).val, (j 1).isLt⟩

theorem mainAdd_eq (n : ℕ) (hn : n < cfg1.N) (p o : Fin 512) (i : S8192x4096.Idx) (k : Fin 4)
    (hr : (i 0).val = 512 * (n / 32) + p.val) (ho : (i 1).val = 512 * (n / 4 % 8) + o.val) (hk : k.val = n % 4) :
    mainAdd V c ⟨n, hn⟩ p o = mainTerm (fun r i => xqArr V c (ix2 r i)) (fun r i => xArr V c (ix2 r i)) (fun o i => wqArr V c (ix2 o i)) (fun o i => wsArr V c (ix2 o i)) ⟨(i 0).val, (i 0).isLt⟩ ⟨(i 1).val, (i 1).isLt⟩ k := by
  unfold mainAdd mainTerm
  refine congrArg₂ (· + ·) (Finset.sum_congr rfl fun j _ => ?_) (Finset.sum_congr rfl fun j _ => ?_)
  · exact congrArg₂ (· * ·)
      (xqBlk_apply V c _ p j (ix2 _ (chunk k j)) hr (by show 1024 * k.val + j.val = _; rw [hk]))
      (wqBlk_apply V c _ o j (ix2 _ (chunk k j)) ho (by show 1024 * k.val + j.val = _; rw [hk]))
  · exact congrArg₂ (· * ·)
      (xBlk_apply V c _ p j (ix2 _ (chunk k j)) hr (by show 1024 * k.val + j.val = _; rw [hk]))
      (wsBlk_apply V c _ o j (ix2 _ (chunk k j)) ho (by show 1024 * k.val + j.val = _; rw [hk]))

theorem loraAdd_eq (n : ℕ) (hn : n < cfg1.N) (p : Fin 512) (q : Fin 32) (i : S8192x4096.Idx) (k : Fin 4)
    (hr : (i 0).val = 512 * (n / 32) + p.val) (hk : k.val = n % 4) :
    loraAdd V c ⟨n, hn⟩ p q = loraTerm (fun r i => xsArr V c (ix2 r i)) (fun q i => laArr V c (ix2 q i)) ⟨(i 0).val, (i 0).isLt⟩ k q := by
  unfold loraAdd loraTerm
  exact Finset.sum_congr rfl fun j _ => congrArg₂ (· * ·)
    (xsBlk_apply V c _ p j (ix2 _ (chunk k j)) hr (by show 1024 * k.val + j.val = _; rw [hk]))
    (laBlk_apply V c _ q j (ix2 q (chunk k j)) (by show q.val = 32 * 0 + q.val; omega) (by show 1024 * k.val + j.val = _; rw [hk]))

theorem entry_eq (n : ℕ) (hn : n < cfg1.N) (h3 : n % 4 = 3) (h0 : n - 3 < cfg1.N) (h1 : n - 2 < cfg1.N) (h2 : n - 1 < cfg1.N)
    (p o : Fin 512) (i : S8192x4096.Idx) (er : (i 0).val = 512 * (n / 32) + p.val) (eo : (i 1).val = 512 * (n / 4 % 8) + o.val) :
    (outsAt1 V c n hn).1 (ix2 p o) = result1 V c i := by
  rw [out_at_flush V c n hn h3 h0 h1 h2 p o]
  unfold result1
  rw [layerOf_eq_runs,
    mainAdd_eq V c (n - 3) h0 p o i 0 (by omega) (by omega) (by show 0 = _; omega),
    mainAdd_eq V c (n - 2) h1 p o i 1 (by omega) (by omega) (by show 1 = _; omega),
    mainAdd_eq V c (n - 1) h2 p o i 2 (by omega) (by omega) (by show 2 = _; omega),
    mainAdd_eq V c n hn p o i 3 er eo (by show 3 = _; omega)]
  refine congrArg (_ + ·) (congrArg₂ (· + ·) (Finset.sum_congr rfl fun q _ => ?_)
    (biasBlk_apply V c ⟨n, hn⟩ 0 o (ix2 0 ⟨(i 1).val, (i 1).isLt⟩) rfl eo))
  rw [loraAdd_eq V c (n - 3) h0 p q i 0 (by omega) (by show 0 = _; omega),
    loraAdd_eq V c (n - 2) h1 p q i 1 (by omega) (by show 1 = _; omega),
    loraAdd_eq V c (n - 1) h2 p q i 2 (by omega) (by show 2 = _; omega),
    loraAdd_eq V c n hn p q i 3 er (by show 3 = _; omega)]
  exact congrArg (_ * ·) (lbBlk_apply V c ⟨n, hn⟩ o q (ix2 ⟨(i 1).val, (i 1).isLt⟩ q) eo (by show q.val = 32 * 0 + q.val; omega))

theorem flushed1_8_eq (t : Fin cfg1.N) (hf : (cfg1.win 8).flush t = true) :
    (dat1 V c).flushed 8 t = ((cfg1.win 8).blk t).view.read (Elt Ideal) (result1 V c) := by
  have h3 : t.val % 4 = 3 := (flush1_8 t).mp hf
  have hN : cfg1.N = 512 := N_1
  have ht := t.isLt
  show (cfg1.win 8).cut (grid1.coords t) ((dat1 V c).after 8 t) = _
  rw [after1_8]
  funext y
  obtain ⟨p, o, rfl⟩ : ∃ (p o : Fin 512), y = ix2 p o := ⟨y 0, y 1, eq_ix2 y⟩
  obtain ⟨er, eo⟩ := emb1_8 t p o
  exact entry_eq V c t.val t.isLt h3 (by omega) (by omega) (by omega) p o _ er eo

theorem arr1_8 : (dat1 (F := Ideal) V c).arrAt 8 cfg1.N
      = fun j : S8192x4096.Idx => Cert.Spec.layerOf
          (fun r i => (V c main_v3_1 : S8192x4096.Idx → EReal) (ix2 r i)) (fun r i => (V c main_v3_0 : S8192x4096.Idx → EReal) (ix2 r i))
          (fun r i => (V c main_v0 : S8192x4096.Idx → EReal) (ix2 r i)) (fun o i => (V c main_arg2 : S4096x4096.Idx → EReal) (ix2 o i))
          (fun q i => (V c main_arg3 : S32x4096.Idx → EReal) (ix2 q i)) (fun o q => (V c main_arg4 : S4096x32.Idx → EReal) (ix2 o q))
          (fun o i => (V c main_arg5 : S4096x4096.Idx → EReal) (ix2 o i)) (fun o => (V c main_v2 : S1x4096.Idx → EReal) (ix2 0 o))
          ⟨(j 0).val, (j 0).isLt⟩ ⟨(j 1).val, (j 1).isLt⟩ :=
  (dat1 V c).arrAt_eq_of_cover 8 (result1 V c) (fun t hf => flushed1_8_eq V c t hf) cover1_8

end Final

end Cert.KernelIdeal.Hand

end
-- ==== Proof.KI.FinalValue.lean ====
import proofs.«158585_j49787260895356_1_alg».proof.Proof.KI.Final
import proofs.«158585_j49787260895356_1_alg».proof.Proof.KI.Val0
import proofs.«158585_j49787260895356_1_alg».proof.Proof.KI.Val1

noncomputable section

namespace Cert.KernelIdeal.Hand

open Cert.KernelIdeal Cert.KernelIdeal.Gen
open Idealize.ShloMosaic Idealize.ShloMosaic.TcCoe Idealize.SL.Sem
open Idealize.ShloMosaic.StableHlo Idealize.ShloMosaic.ValueIdx

variable (m : (ℓ : Loc nD τ sig) → Buf (Elt Ideal) ℓ)

theorem value_v5 (c : Dev nD) :
    W5 m c (Proc.devRef .tc main_v5) = Cert.Spec.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine Cert.Spec.result_of_chain _ _ _ _ _ _ _ Facts₀.shapeCasts_S4x2048x4096_S8192x4096 Facts₀.shapeCasts_S4096_S1x4096 Facts₀.shapeCasts_S8192x4096_S4x2048x4096
    (V1 m c main_v0) (V2 m c main_v3_0) (V2 m c main_v3_1) (W4 m c (Proc.devRef .tc main_v4)) (V1 m c main_v1) (V1 m c main_v2) _
    (W1_main_v0 m c) (W1_main_v1 m c) (W1_main_v2 m c) ((W2_arr m c 2).trans (arr0_2 (V1 m) c)) ((W2_arr m c 3).trans (arr0_3 (V1 m) c)) ?_ (W5_main_v5 m c)
  refine (W4_arr m c 8).trans ((arr1_8 (V2 m) c).trans ?_)
  rw [V2_main_v0, V2_main_v2, V2_arg m c main_arg2 (by decide) (by decide), V2_arg m c main_arg3 (by decide) (by decide), V2_arg m c main_arg4 (by decide) (by decide), V2_arg m c main_arg5 (by decide) (by decide)]

end Cert.KernelIdeal.Hand

end
-- ==== Proof.RefRead.lean ====
import proofs.«158585_j49787260895356_1_alg».proof.Proof.RefRun
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]
variable (xq xs x0 : (⟨S4x2048x4096, .f32⟩ : BufTy).Contents (Elt F)) (x1 : (⟨S4096, .f32⟩ : BufTy).Contents (Elt F)) (x2 : (⟨S4096x4096, .f32⟩ : BufTy).Contents (Elt F))
  (x3 : (⟨S32x4096, .f32⟩ : BufTy).Contents (Elt F)) (x4 : (⟨S4096x32, .f32⟩ : BufTy).Contents (Elt F)) (x5 : (⟨S4096x4096, .f32⟩ : BufTy).Contents (Elt F)) (x6 : (⟨S4096, .f32⟩ : BufTy).Contents (Elt F))
  (y3 : (⟨S2097152x16, .f32⟩ : BufTy).Contents (Elt F)) (y6 : (⟨S2097152x1, .f32⟩ : BufTy).Contents (Elt F))

/-- The first stretch, of the activations and the scale vector: smoothing, the view as runs of 16, each run's greatest absolute value. -/
def val_main_v1 : (⟨S4x2048x4096, .f32⟩ : BufTy).Contents (Elt F) :=
  broadcastInDim S4x2048x4096 ![0, 1, 2] bcast_S1x1x4096_S4x2048x4096_0_1_2 (broadcastInDim S1x1x4096 ![2] bcast_S4096_S1x1x4096_2 x1)
def val_main_v2 : (⟨S4x2048x4096, .f32⟩ : BufTy).Contents (Elt F) :=
  mulf x0 (val_main_v1 (F := F) x1)
theorem val_main_v2_apply (i : S4x2048x4096.Idx) :
    val_main_v2 (F := F) x0 x1 i = FloatOps.mulf (x0 i) (val_main_v1 (F := F) x1 i) := rfl
def val_main_v3 : (⟨S2097152x16, .f32⟩ : BufTy).Contents (Elt F) :=
  shapeCast _ (val_main_v2 (F := F) x0 x1) shapeCasts_S4x2048x4096_S2097152x16
def val_main_v4 : (⟨S2097152x16, .f32⟩ : BufTy).Contents (Elt F) :=
  Host.absf (val_main_v3 (F := F) x0 x1)
def val_main_v5 : (⟨S2097152, .f32⟩ : BufTy).Contents (Elt F) :=
  Host.reduce FloatOps.maximumf (val_main_v4 (F := F) x0 x1) (constant S_ .f32 0xFF800000#32) reducesTo_S2097152x16_S2097152_d1 h_S_
def val_main_v6 : (⟨S2097152x1, .f32⟩ : BufTy).Contents (Elt F) :=
  broadcastInDim S2097152x1 ![0] bcast_S2097152_S2097152x1_0 (val_main_v5 (F := F) x0 x1)

/-- The middle stretch, of the runs `y3` and their greatest absolute values `y6`: the fake-quantisation. -/
def val_main_call0_v1 : (⟨S2097152x1, .f32⟩ : BufTy).Contents (Elt F) :=
  broadcastInDim S2097152x1 ![] bcast_S_S2097152x1 (id (constant S_ .f32 0x2B8CBCCC#32))
def val_main_v7 : (⟨S2097152x1, .f32⟩ : BufTy).Contents (Elt F) :=
  maximumf (val_main_call0_v1 (F := F)) y6
theorem val_main_v7_apply (i : S2097152x1.Idx) :
    val_main_v7 (F := F) y6 i = FloatOps.maximumf (val_main_call0_v1 (F := F) i) (y6 i) := rfl
def val_main_v8 : (⟨S2097152x1, .f32⟩ : BufTy).Contents (Elt F) :=
  broadcastInDim S2097152x1 ![] bcast_S_S2097152x1 (constant S_ .f32 0x40E00000#32)
def val_main_v9 : (⟨S2097152x1, .f32⟩ : BufTy).Contents (Elt F) :=
  Host.divf (val_main_v7 (F := F) y6) (val_main_v8 (F := F))
theorem val_main_v9_apply (i : S2097152x1.Idx) :
    val_main_v9 (F := F) y6 i = FloatOps.hostDivf (val_main_v7 (F := F) y6 i) (val_main_v8 (F := F) i) := rfl
def val_main_v10 : (⟨S2097152x16, .f32⟩ : BufTy).Contents (Elt F) :=
  broadcastInDim S2097152x16 ![0, 1] bcast_S2097152x1_S2097152x16_0_1 (val_main_v9 (F := F) y6)
def val_main_v11 : (⟨S2097152x16, .f32⟩ : BufTy).Contents (Elt F) :=
  Host.divf y3 (val_main_v10 (F := F) y6)
theorem val_main_v11_apply (i : S2097152x16.Idx) :
    val_main_v11 (F := F) y3 y6 i = FloatOps.hostDivf (y3 i) (val_main_v10 (F := F) y6 i) := rfl
def val_main_v12 : (⟨S2097152x16, .f32⟩ : BufTy).Contents (Elt F) :=
  Host.roundeven (val_main_v11 (F := F) y3 y6)
theorem val_main_v12_apply (i : S2097152x16.Idx) :
    val_main_v12 (F := F) y3 y6 i = FloatOps.hostUnary .roundeven (val_main_v11 (F := F) y3 y6 i) := rfl
def val_main_call2_v1 : (⟨S2097152x16, .f32⟩ : BufTy).Contents (Elt F) :=
  broadcastInDim S2097152x16 ![] bcast_S_S2097152x16 (id (constant S_ .f32 0xC0E00000#32))
def val_main_call2_v2 : (⟨S2097152x16, .f32⟩ : BufTy).Contents (Elt F) :=
  maximumf (val_main_call2_v1 (F := F)) (val_main_v12 (F := F) y3 y6)
theorem val_main_call2_v2_apply (i : S2097152x16.Idx) :
    val_main_call2_v2 (F := F) y3 y6 i = FloatOps.maximumf (val_main_call2_v1 (F := F) i) (val_main_v12 (F := F) y3 y6 i) := rfl
def val_main_call2_v4 : (⟨S2097152x16, .f32⟩ : BufTy).Contents (Elt F) :=
  broadcastInDim S2097152x16 ![] bcast_S_S2097152x16 (id (constant S_ .f32 0x40E00000#32))
def val_main_v13 : (⟨S2097152x16, .f32⟩ : BufTy).Contents (Elt F) :=
  minimumf (val_main_call2_v4 (F := F)) (val_main_call2_v2 (F := F) y3 y6)
theorem val_main_v13_apply (i : S2097152x16.Idx) :
    val_main_v13 (F := F) y3 y6 i = FloatOps.minimumf (val_main_call2_v4 (F := F) i) (val_main_call2_v2 (F := F) y3 y6 i) := rfl
def val_main_v15 : (⟨S2097152x16, .f32⟩ : BufTy).Contents (Elt F) :=
  mulf (val_main_v13 (F := F) y3 y6) (val_main_v10 (F := F) y6)
theorem val_main_v15_apply (i : S2097152x16.Idx) :
    val_main_v15 (F := F) y3 y6 i = FloatOps.mulf (val_main_v13 (F := F) y3 y6 i) (val_main_v10 (F := F) y6 i) := rfl
def val_main_v16 : (⟨S4x2048x4096, .f32⟩ : BufTy).Contents (Elt F) :=
  shapeCast _ (val_main_v15 (F := F) y3 y6) shapeCasts_S2097152x16_S4x2048x4096

/-- The last stretch, of the fake-quantised, the smoothed and the raw activations: three contractions, summed, plus the bias. -/
def val_main_mm : (⟨S4x2048x4096, .f32⟩ : BufTy).Contents (Elt F) :=
  addf (addf (addf (Host.dotGeneral dot_S4x2048x4096_S4096x4096_S4x2048x4096_2_1_01_0_n_n none xq x2)
      (Host.dotGeneral dot_S4x2048x32_S4096x32_S4x2048x4096_2_1_01_0_n_n none
        (Host.dotGeneral dot_S4x2048x4096_S32x4096_S4x2048x32_2_1_01_0_n_n none xs x3) x4))
    (Host.dotGeneral dot_S4x2048x4096_S4096x4096_S4x2048x4096_2_1_01_0_n_n none x0 x5)) (val_main_v1 (F := F) x6)

/-- The whole reference: the last stretch at the fake-quantised, the smoothed and the raw activations. -/
def val_main_v25 : (⟨S4x2048x4096, .f32⟩ : BufTy).Contents (Elt F) :=
  val_main_mm (F := F) (val_main_v16 (F := F) (val_main_v3 (F := F) x0 x1) (val_main_v6 (F := F) x0 x1)) (val_main_v2 (F := F) x0 x1) x0 x2 x3 x4 x5 x6

end Cert.ReferenceIdeal.ReadP

end
-- ==== Proof.RefAfter.lean ====
import proofs.«158585_j49787260895356_1_alg».proof.Proof.RefRead

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- The 38 operations in three stretches: smoothing and each run's greatest absolute value, the fake-quantisation, the contractions. -/
abbrev opsA : List (HloOp τ sig (Elt F)) := (ValueP.ops (F := F)).take 8
abbrev opsM : List (HloOp τ sig (Elt F)) := ((ValueP.ops (F := F)).drop 8).take 21
abbrev opsG : List (HloOp τ sig (Elt F)) := (ValueP.ops (F := F)).drop 29

theorem ops_cut : ValueP.ops (F := F) = opsA ++ opsM ++ opsG := rfl

theorem afterM_v16 (W : Valuation τ sig (Elt F)) :
    after (opsM (F := F)) W (Proc.devRef .tc main_v16) = val_main_v16 (F := F) (W (Proc.devRef .tc main_v3)) (W (Proc.devRef .tc main_v6)) := by
  simp only [opsM, ValueP.ops, List.drop_succ_cons, List.drop_zero, List.take_succ_cons, List.take_zero]
  after_results_simp
  simp only [TRef.ofBuf, TRef.toBuf, cast_eq]
  try rfl

theorem afterG_v25 (W : Valuation τ sig (Elt F)) :
    after (opsG (F := F)) W (Proc.devRef .tc main_v25)
      = val_main_mm (F := F) (W (Proc.devRef .tc main_v16)) (W (Proc.devRef .tc main_v2)) (W (Proc.devRef .tc main_arg0)) (W (Proc.devRef .tc main_arg2))
          (W (Proc.devRef .tc main_arg3)) (W (Proc.devRef .tc main_arg4)) (W (Proc.devRef .tc main_arg5)) (W (Proc.devRef .tc main_arg6)) := by
  simp only [opsG, ValueP.ops, List.drop_succ_cons, List.drop_zero]
  after_results_simp
  try rfl

/-- The fold over the three stretches in a row is the last stage at the arguments. -/
theorem after_v25 (V : Valuation τ sig (Elt F)) :
    after (ValueP.ops (F := F)) V (Proc.devRef .tc main_v25)
      = val_main_v25 (F := F) (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) := by
  rw [ops_cut, StableHlo.after_append, StableHlo.after_append, afterG_v25, afterM_v16]
  simp only [opsA, opsM, ValueP.ops, List.drop_succ_cons, List.drop_zero, List.take_succ_cons, List.take_zero]
  after_results_simp
  rfl

end Cert.ReferenceIdeal.RefValue

end
-- ==== Proof.RefQuant.lean ====
import proofs.«158585_j49787260895356_1_alg».proof.Proof.RefRead
import proofs.«158585_j49787260895356_1_alg».proof.Proof.SpecArr
import proofs.«158585_j49787260895356_1_alg».proof.Proof.KI.FinalIdx
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.ReadP Cert.Spec Idealize.ShloMosaic Idealize.ShloMosaic.ValueIdx

variable (x : FVec Ideal S4x2048x4096 .f32) (s : FVec Ideal S4096 .f32) (b : Fin 4) (s' : Fin 2048) (i : Fin 4096)
  (g : Fin 256) (k : Fin 16) (R : Fin 2097152) (y3 : FVec Ideal S2097152x16 .f32) (y6 : FVec Ideal S2097152x1 .f32)

/-- A vector spread over the rows is read at the last coordinate. -/
theorem spread_apply (v : FVec Ideal S4096 .f32) : val_main_v1 (F := Ideal) v (ix3 b s' i) = v (ix1 i) := by
  unfold val_main_v1
  refine (broadcastInDim_apply _ bcast_S1x1x4096_S4x2048x4096_0_1_2 _ (ix3 b s' i) (ix3 (0 : Fin 1) (0 : Fin 1) i) (fun a => match a with
    | ⟨0, _⟩ => by show 0 = if (1 : Nat) = 1 then 0 else b.val; rw [if_pos rfl]
    | ⟨1, _⟩ => by show 0 = if (1 : Nat) = 1 then 0 else s'.val; rw [if_pos rfl]
    | ⟨2, _⟩ => by show i.val = if (4096 : Nat) = 1 then 0 else i.val; rw [if_neg (by decide)])).trans ?_
  exact broadcastInDim_apply _ bcast_S4096_S1x1x4096_2 v (ix3 (0 : Fin 1) (0 : Fin 1) i) (ix1 i) (fun a => match a with
    | ⟨0, _⟩ => by show i.val = if (4096 : Nat) = 1 then 0 else i.val; rw [if_neg (by decide)])

theorem rows3_rowOf : rows3 x (rowOf b s') i = x (ix3 b s' i) := by
  unfold rows3
  rw [batchOf_rowOf, posOf_rowOf]

theorem smooth_apply : val_main_v2 (F := Ideal) x s (ix3 b s' i) = smooth (rows3 x) (vec s) (rowOf b s') i := by
  rw [val_main_v2_apply, spread_apply]
  unfold smooth
  rw [rows3_rowOf]
  rfl

/-- The row of the [2097152, 16] view that holds run `g` of flattened row `2048·b + s'`. -/
def runRow : Fin 2097152 := ⟨(2048 * b.val + s'.val) * 256 + g.val, by omega⟩

/-- Place `k` of that row is channel `16 g + k` of the flattened row: the two have the same row-major position. -/
theorem runs_apply : val_main_v3 (F := Ideal) x s (ix2 (runRow b s' g) k) = smooth (rows3 x) (vec s) (rowOf b s') (chan g k) := by
  unfold val_main_v3
  rw [shapeCast_apply _ shapeCasts_S4x2048x4096_S2097152x16 (ix2 (runRow b s' g) k) (ix3 b s' (chan g k)) (by
    rewrite [Shape.rowMajor_val_three, Shape.rowMajor_val_two]
    show (b.val * 2048 + s'.val) * 4096 + (16 * g.val + k.val) = ((2048 * b.val + s'.val) * 256 + g.val) * 16 + k.val
    omega), smooth_apply]

/-- The greatest absolute value of a row of the view: the fold of the maximum from -∞ over its 16 places. -/
theorem runMax_apply : val_main_v5 (F := Ideal) x s (ix1 R)
    = max16 fun k => max (val_main_v3 (F := Ideal) x s (ix2 R k)) (-(val_main_v3 (F := Ideal) x s (ix2 R k))) := by
  unfold val_main_v5
  have h : S2097152x16.Reduces [1] S2097152 := by decide
  rw [Host.reduce_eq_fold_single FloatOps.maximumf _ _ reducesTo_S2097152x16_S2097152_d1 h h_S_]
  refine congrArg (fun f : Fin 16 → EReal => (Finset.univ : Finset (Fin 16)).fold max negInf f) (funext fun (k : Fin 16) => ?_)
  have hl : h.lift (ix1 R) k = ix2 R k := funext fun ax => Fin.ext (by
    match ax with
    | ⟨0, _⟩ => rfl
    | ⟨1, _⟩ => rfl)
  exact congrArg (val_main_v4 (F := Ideal) x s) hl

/-- The scale of a row: the larger of the floor and the row's greatest absolute value, over 7. -/
theorem scale_apply : val_main_v9 (F := Ideal) (val_main_v6 (F := Ideal) x s) (ix2 R (0 : Fin 1))
    = Ideal.div (max eps (val_main_v5 (F := Ideal) x s (ix1 R))) qmax := by
  have h6 : val_main_v6 (F := Ideal) x s (ix2 R (0 : Fin 1)) = val_main_v5 (F := Ideal) x s (ix1 R) := by
    unfold val_main_v6
    exact broadcastInDim_apply _ bcast_S2097152_S2097152x1_0 _ (ix2 R (0 : Fin 1)) (ix1 R) (fun a => match a with
      | ⟨0, _⟩ => by show R.val = if (2097152 : Nat) = 1 then 0 else R.val; rw [if_neg (by decide)])
  rw [val_main_v9_apply, val_main_v7_apply, h6]
  rfl

/-- Place `k` of a row after the quantisation: the value over the row's scale, rounded, clamped to [-7, 7], times the scale. -/
theorem quantRun_apply : val_main_v15 (F := Ideal) y3 y6 (ix2 R k)
    = min qmax (max qmin (rnd (Ideal.div (y3 (ix2 R k)) (val_main_v9 (F := Ideal) y6 (ix2 R (0 : Fin 1)))))) * val_main_v9 (F := Ideal) y6 (ix2 R (0 : Fin 1)) := by
  have h10 : val_main_v10 (F := Ideal) y6 (ix2 R k) = val_main_v9 (F := Ideal) y6 (ix2 R (0 : Fin 1)) := by
    unfold val_main_v10
    exact broadcastInDim_apply _ bcast_S2097152x1_S2097152x16_0_1 _ (ix2 R k) (ix2 R (0 : Fin 1)) (fun a => match a with
      | ⟨0, _⟩ => by show R.val = if (2097152 : Nat) = 1 then 0 else R.val; rw [if_neg (by decide)]
      | ⟨1, _⟩ => by show 0 = if (1 : Nat) = 1 then 0 else k.val; rw [if_pos rfl])
  rw [val_main_v15_apply, val_main_v13_apply, val_main_call2_v2_apply, val_main_v12_apply, val_main_v11_apply, h10]
  rfl

theorem quant_apply : val_main_v16 (F := Ideal) (val_main_v3 (F := Ideal) x s) (val_main_v6 (F := Ideal) x s) (ix3 b s' i)
    = quant (smooth (rows3 x) (vec s) (rowOf b s')) i := by
  unfold val_main_v16
  rw [shapeCast_apply _ shapeCasts_S2097152x16_S4x2048x4096 (ix3 b s' i)
    (ix2 (runRow b s' (runOf i)) (⟨i.val % 16, Nat.mod_lt _ (by norm_num)⟩ : Fin 16)) (by
      rewrite [Shape.rowMajor_val_two, Shape.rowMajor_val_three]
      show ((2048 * b.val + s'.val) * 256 + i.val / 16) * 16 + i.val % 16 = (b.val * 2048 + s'.val) * 4096 + i.val
      omega), quantRun_apply, scale_apply, runMax_apply]
  simp only [runs_apply]
  rw [show chan (runOf i) (⟨i.val % 16, Nat.mod_lt _ (by norm_num)⟩ : Fin 16) = i from Fin.ext (Nat.div_add_mod i.val 16)]
  rfl

end Cert.ReferenceIdeal.RefValue

end
-- ==== Proof.RefMM.lean ====
import Idealize.ShloMosaic.Lib.ValueIdx
import Idealize.ShloMosaic.PureOps.Ideal.Laws

noncomputable section

namespace Cert.ReferenceIdeal.RefValue

open Idealize.ShloMosaic Idealize.ShloMosaic.ValueIdx

/-- A contraction of the last axis of `[a, b, n]` against the last axis of `[m, n]`, at `(p, q, o)`: the sum over the contracted coordinate. -/
theorem dot_apply {a b n m : Nat} {w} {D : DotDims ⟨3, ![a, b, n]⟩ ⟨2, ![m, n]⟩ ⟨3, ![a, b, m]⟩}
    (hD : D = ⟨[2], [1], [0, 1], [0], [], [], w⟩) (x : FVec Ideal ⟨3, ![a, b, n]⟩ .f32) (y : FVec Ideal ⟨2, ![m, n]⟩ .f32)
    (p : Fin a) (q : Fin b) (o : Fin m) :
    Host.dotGeneral D none x y (ix3 p q o) = ∑ k : Fin n, x (ix3 p q k) * y (ix2 o k) := by
  subst hD
  show FloatOps.dotGeneral _ none _ x y (ix3 p q o) = _
  rw [Ideal.dotGeneral_apply, ← Equiv.sum_comp (contrEquiv1 _ n rfl rfl).symm]
  refine Finset.sum_congr rfl fun k _ => ?_
  have hk := contrEquiv1_symm_val (⟨[2], [1], [0, 1], [0], [], [], w⟩ : DotDims ⟨3, ![a, b, n]⟩ ⟨2, ![m, n]⟩ ⟨3, ![a, b, m]⟩) n rfl rfl k
  congr 2 <;> funext ax <;> apply Fin.ext
  · match ax with
    | ⟨0, _⟩ => simp [DotDims.lhsIdx]; rfl
    | ⟨1, _⟩ => simp [DotDims.lhsIdx]; rfl
    | ⟨2, _⟩ => simp [DotDims.lhsIdx]; exact hk
  · match ax with
    | ⟨0, _⟩ => simp [DotDims.rhsIdx]; rfl
    | ⟨1, _⟩ => simp [DotDims.rhsIdx]; exact hk

end Cert.ReferenceIdeal.RefValue

end
-- ==== Proof.Ref.lean ====
import proofs.«158585_j49787260895356_1_alg».proof.Proof.RefAfter
import proofs.«158585_j49787260895356_1_alg».proof.Proof.RefQuant
import proofs.«158585_j49787260895356_1_alg».proof.Proof.RefMM

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx
open Cert.ReferenceIdeal.ReadP Cert.Spec

/-- The last stage is the layer's result array: at `(b, p, o)` its contractions are sums over the channels of flattened row `2048·b + p`. -/
theorem val_v25_eq_result (x : FVec Ideal S4x2048x4096 .f32) (s : FVec Ideal S4096 .f32) (wq : FVec Ideal S4096x4096 .f32)
    (la : FVec Ideal S32x4096 .f32) (lb : FVec Ideal S4096x32 .f32) (ws : FVec Ideal S4096x4096 .f32) (bias : FVec Ideal S4096 .f32) :
    val_main_v25 (F := Ideal) x s wq la lb ws bias = result x s wq la lb ws bias := by
  funext j
  obtain ⟨b, p, o, rfl⟩ : ∃ (b : Fin 4) (p : Fin 2048) (o : Fin 4096), j = ix3 b p o := ⟨j 0, j 1, j 2, eq_ix3 j⟩
  refine (congrArg₂ (· + ·) (congrArg₂ (· + ·) (congrArg₂ (· + ·) (dot_apply (by rfl) _ wq b p o)
    ((dot_apply (by rfl) _ lb b p o).trans (Finset.sum_congr rfl fun q _ => congrArg (· * _) (dot_apply (by rfl) _ la b p q))))
    (dot_apply (by rfl) x ws b p o)) (spread_apply b p o bias)).trans ?_
  show _ = layerOf (fun r => quant (smooth (rows3 x) (vec s) r)) (smooth (rows3 x) (vec s)) (rows3 x) (mat wq) (mat la) (mat lb)
    (mat ws) (vec bias) (rowOf b p) o
  unfold layerOf
  simp only [quant_apply, smooth_apply, rows3_rowOf, mat, vec]

theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v25) = Cert.Spec.result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans ((after_v25 (F := Ideal) _).trans (val_v25_eq_result _ _ _ _ _ _ _)), (h c).2⟩)
    (ValueP.run (F := Ideal) m ρ)

end Cert.ReferenceIdeal.RefValue

end
-- ==== Proof.lean ====
import proofs.«158585_j49787260895356_1_alg».proof.Defs
import proofs.«158585_j49787260895356_1_alg».proof.Proof.Gen.Kernel
import proofs.«158585_j49787260895356_1_alg».proof.Proof.Gen.KernelIdeal
import proofs.«158585_j49787260895356_1_alg».proof.Proof.Gen.ReferenceIdeal
import proofs.«158585_j49787260895356_1_alg».proof.Proof.Gen.Pre_finite_inputs
import proofs.«158585_j49787260895356_1_alg».proof.Proof.K.Run
import proofs.«158585_j49787260895356_1_alg».proof.Proof.KI.FinalValue
import proofs.«158585_j49787260895356_1_alg».proof.Proof.Ref
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Hand.frame m ρ
theorem frame_pi : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.RefValue.run_ref m ρ)

theorem preserves : Cert.preserves_Kernel_KernelIdeal := trivial

theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun _ h c => ⟨(h c).1.trans (Cert.KernelIdeal.Hand.value_v5 m c), (h c).2⟩)
      (Cert.KernelIdeal.Hand.run_post m ρ)
  · refine (θ_run Cert.ReferenceIdeal.defs _ _).mono (fun _ h c => ⟨(h c).1.trans ?_, (h c).2⟩)
      (Cert.ReferenceIdeal.RefValue.run_ref m' ρ')
    rw [(hagree c).1, (hagree c).2.1, (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
